-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v14_0)) (v4 : (c : Dev Cert.KernelIdeal.nD) → Buf (Elt Ideal) ((c.tc : Thread Cert.KernelIdeal.nD Cert.KernelIdeal.τ).loc Cert.KernelIdeal.main_v15_0)) (v5 : (c : Dev Cert.KernelIdeal.nD) → Buf (Elt Ideal) ((c.tc : Thread Cert.KernelIdeal.nD Cert.KernelIdeal.τ).loc Cert.KernelIdeal.main_v16_0)) (v6 : (c : Dev Cert.KernelIdeal.nD) → Buf (Elt Ideal) ((c.tc : Thread Cert.KernelIdeal.nD Cert.KernelIdeal.τ).loc Cert.KernelIdeal.main_v14_1)) (v7 : (c : Dev Cert.KernelIdeal.nD) → Buf (Elt Ideal) ((c.tc : Thread Cert.KernelIdeal.nD Cert.KernelIdeal.τ).loc Cert.KernelIdeal.main_v15_1)) (v8 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v14_0) = v3 c
          ∧ r.2.mem ((c.tc : Thread Cert.KernelIdeal.nD Cert.KernelIdeal.τ).loc Cert.KernelIdeal.main_v15_0) = v4 c
          ∧ r.2.mem ((c.tc : Thread Cert.KernelIdeal.nD Cert.KernelIdeal.τ).loc Cert.KernelIdeal.main_v16_0) = v5 c
          ∧ r.2.mem ((c.tc : Thread Cert.KernelIdeal.nD Cert.KernelIdeal.τ).loc Cert.KernelIdeal.main_v14_1) = v6 c
          ∧ r.2.mem ((c.tc : Thread Cert.KernelIdeal.nD Cert.KernelIdeal.τ).loc Cert.KernelIdeal.main_v15_1) = v7 c
          ∧ r.2.mem ((c.tc : Thread Cert.KernelIdeal.nD Cert.KernelIdeal.τ).loc Cert.KernelIdeal.main_v16_1) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_v54) = v6 c
          ∧ r.2.mem ((c.tc : Thread Cert.ReferenceIdeal.nD Cert.ReferenceIdeal.τ).loc Cert.ReferenceIdeal.main_v43) = v7 c
          ∧ r.2.mem ((c.tc : Thread Cert.ReferenceIdeal.nD Cert.ReferenceIdeal.τ).loc Cert.ReferenceIdeal.main_v32) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048x2050 : Shape := ⟨2, ![2048, 2050]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2050 : S_.BroadcastsInDim S2048x2050 (![] : Fin 0 → Fin S2048x2050.rank)
  reducesTo_S2048x2050_S_d0_1 : S2048x2050.ReducesTo [0, 1] S_
  reducesTo_S_S_d : S_.ReducesTo [] S_

variable [Facts]

def fn_part3 {F : FTy → Type} [FloatOps F] (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  main_v52

def fn_part2 {F : FTy → Type} [FloatOps F] (main_arg7 : FVec F S2048x2048 .f32) (main_arg8 : FVec F S2048x2048 .f32) (main_arg9 : FVec F S2048x2050 .f32) (main_arg10 : FVec F S_ .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2050 .f32 := Host.absf main_arg9
  let main_cst_16 : FVec F S_ .f32 := constant S_ .f32 0x7F800000#32
  let main_v45 : FVec F S2048x2050 .f32 := broadcastInDim S2048x2050 ![] bcast_S_S2048x2050 main_cst_16
  let main_v46 : IVec S2048x2050 1 := cmpf .olt main_v44 main_v45
  let main_c_17 : IVec S_ 1 := constantI S_ 1 1#1
  let main_v47 : IVec S_ 1 := (fun x v => Host.reduce IntOp.andi x v reducesTo_S2048x2050_S_d0_1 h_S_) main_v46 main_c_17
  let main_v48 : IVec S_ 1 := andi main_v43 main_v47
  let main_v49 : FVec F S_ .f32 := Host.absf main_arg10
  let main_cst_18 : FVec F S_ .f32 := constant S_ .f32 0x7F800000#32
  let main_v50 : IVec S_ 1 := cmpf .olt main_v49 main_cst_18
  fn_part3 (F := F) main_v48 main_v50

def fn_part1 {F : FTy → Type} [FloatOps F] (main_arg4 : FVec F S2048x2048 .f32) (main_arg5 : FVec F S2048x2048 .f32) (main_arg6 : FVec F S2048x2050 .f32) (main_arg7 : FVec F S2048x2048 .f32) (main_arg8 : FVec F S2048x2048 .f32) (main_arg9 : FVec F S2048x2050 .f32) (main_arg10 : FVec F S_ .f32) (main_v13 : IVec S_ 1) (main_v16 : IVec S2048x2050 1) : IVec S_ 1 :=
  let main_c_5 : IVec S_ 1 := constantI S_ 1 1#1
  let main_v17 : IVec S_ 1 := (fun x v => Host.reduce IntOp.andi x v reducesTo_S2048x2050_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2050 .f32 := Host.absf main_arg6
  let main_cst_10 : FVec F S_ .f32 := constant S_ .f32 0x7F800000#32
  let main_v30 : FVec F S2048x2050 .f32 := broadcastInDim S2048x2050 ![] bcast_S_S2048x2050 main_cst_10
  let main_v31 : IVec S2048x2050 1 := cmpf .olt main_v29 main_v30
  let main_c_11 : IVec S_ 1 := constantI S_ 1 1#1
  let main_v32 : IVec S_ 1 := (fun x v => Host.reduce IntOp.andi x v reducesTo_S2048x2050_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S2048x2048 .f32) (main_arg2 : FVec F S2048x2048 .f32) (main_arg3 : FVec F S2048x2050 .f32) (main_arg4 : FVec F S2048x2048 .f32) (main_arg5 : FVec F S2048x2048 .f32) (main_arg6 : FVec F S2048x2050 .f32) (main_arg7 : FVec F S2048x2048 .f32) (main_arg8 : FVec F S2048x2048 .f32) (main_arg9 : FVec F S2048x2050 .f32) (main_arg10 : FVec F S_ .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2050 .f32 := Host.absf main_arg3
  let main_cst_4 : FVec F S_ .f32 := constant S_ .f32 0x7F800000#32
  let main_v15 : FVec F S2048x2050 .f32 := broadcastInDim S2048x2050 ![] bcast_S_S2048x2050 main_cst_4
  let main_v16 : IVec S2048x2050 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x2048 : Shape := ⟨2, ![2048, 2048]⟩
abbrev S2048x2050 : Shape := ⟨2, ![2048, 2050]⟩
abbrev S_ : Shape := ⟨0, ![]⟩
abbrev S4096x2050 : Shape := ⟨2, ![4096, 2050]⟩
abbrev S1x1 : Shape := ⟨2, ![1, 1]⟩
abbrev S128x2048 : Shape := ⟨2, ![128, 2048]⟩
abbrev S128x2050 : Shape := ⟨2, ![128, 2050]⟩
abbrev S128x1 : Shape := ⟨2, ![128, 1]⟩
abbrev S1 : Shape := ⟨1, ![1]⟩
abbrev S1024x512 : Shape := ⟨2, ![1024, 512]⟩
abbrev S512x512 : Shape := ⟨2, ![512, 512]⟩
abbrev S512x256 : Shape := ⟨2, ![512, 256]⟩
abbrev S512x2050 : Shape := ⟨2, ![512, 2050]⟩
abbrev S256x2050 : Shape := ⟨2, ![256, 2050]⟩

abbrev nBuf : Space → Nat
  | .hbm => 37
  | .vmem => 57
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2050, .f32⟩
  | .hbm, ⟨4, _⟩ => ⟨S2048x2048, .f32⟩
  | .hbm, ⟨5, _⟩ => ⟨S2048x2048, .f32⟩
  | .hbm, ⟨6, _⟩ => ⟨S2048x2050, .f32⟩
  | .hbm, ⟨7, _⟩ => ⟨S2048x2048, .f32⟩
  | .hbm, ⟨8, _⟩ => ⟨S2048x2048, .f32⟩
  | .hbm, ⟨9, _⟩ => ⟨S2048x2050, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S2048x2050, .f32⟩
  | .hbm, ⟨20, _⟩ => ⟨S2048x2050, .f32⟩
  | .hbm, ⟨21, _⟩ => ⟨S2048x2050, .f32⟩
  | .hbm, ⟨22, _⟩ => ⟨S2048x2050, .bf16⟩
  | .hbm, ⟨23, _⟩ => ⟨S4096x2048, .f32⟩
  | .hbm, ⟨24, _⟩ => ⟨S4096x2048, .f32⟩
  | .hbm, ⟨25, _⟩ => ⟨S4096x2050, .f32⟩
  | .hbm, ⟨26, _⟩ => ⟨S1x1, .f32⟩
  | .hbm, ⟨27, _⟩ => ⟨S1x1, .f32⟩
  | .hbm, ⟨28, _⟩ => ⟨S4096x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2050, .f32⟩
  | .hbm, ⟨34, _⟩ => ⟨S2048x2050, .f32⟩
  | .hbm, ⟨35, _⟩ => ⟨S_, .f32⟩
  | .hbm, ⟨36, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2050, .bf16⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2050, .f32⟩
  | .local _ .vmem, ⟨10, _⟩ => ⟨S128x2050, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1x1, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S1x1, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x256, .f32⟩
  | .local _ .vmem, ⟨44, _⟩ => ⟨S512x256, .f32⟩
  | .local _ .vmem, ⟨45, _⟩ => ⟨S512x2050, .f32⟩
  | .local _ .vmem, ⟨46, _⟩ => ⟨S512x2050, .f32⟩
  | .local _ .vmem, ⟨47, _⟩ => ⟨S256x2050, .f32⟩
  | .local _ .vmem, ⟨48, _⟩ => ⟨S256x2050, .f32⟩
  | .local _ .vmem, ⟨49, _⟩ => ⟨S256x2050, .f32⟩
  | .local _ .vmem, ⟨50, _⟩ => ⟨S256x2050, .f32⟩
  | .local _ .vmem, ⟨51, _⟩ => ⟨S1x1, .f32⟩
  | .local _ .vmem, ⟨52, _⟩ => ⟨S256x2050, .f32⟩
  | .local _ .vmem, ⟨53, _⟩ => ⟨S256x2050, .f32⟩
  | .local _ .vmem, ⟨54, _⟩ => ⟨S256x2050, .f32⟩
  | .local _ .vmem, ⟨55, _⟩ => ⟨S256x2050, .f32⟩
  | .local _ .vmem, ⟨56, _⟩ => ⟨S256x2050, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v15_0 : Ref sig .tc := ⟨.hbm, 31, rfl⟩
abbrev main_v15_1 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_scratch0 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc3_scratch0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem6_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem5_1 : DmaSem sig := 49
abbrev cc3_sem6_0 : DmaSem sig := 50
abbrev cc3_sem6_1 : DmaSem sig := 51

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v41 : BitVec 1 := Scalar.cmpi .eq arg0 c31_i32
  let v42 : BitVec 32 := Scalar.extui v41
  let c0_i32_28 : BitVec 32 := 0#32
  let v43 : BitVec 1 := Scalar.cmpi .ne v42 c0_i32_28
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2050 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2050 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_9 : BitVec 32 := 0#32
  let v19 : BitVec 1 := Scalar.cmpi .ne v18 c0_i32_9
  v19

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![8, 1, 8], ![false, false, false]⟩

def k3_cond2 (i : grid3.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_9 : BitVec 32 := 0#32
  let v19 : BitVec 1 := Scalar.cmpi .ne v18 c0_i32_9
  v19

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x2050 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S256x2050 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x2050 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S256x2050 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S256x2050 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

class Facts₀ : Prop where
  bcast_S_S2048x2048 : S_.BroadcastsInDim S2048x2048 (![] : Fin 0 → Fin S2048x2048.rank)
  bitsLt_bf16_f32 : FTy.bits .bf16 < FTy.bits .f32
  bcast_S_S2048x2050 : S_.BroadcastsInDim S2048x2050 (![] : Fin 0 → Fin S2048x2050.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x2050_S2048x2050_0_0 : ∀ a, (![0, 0] : Fin 2 → Nat) a + S2048x2050.size a ≤ S2048x2050.size a
  h_S2048x2050 : 0 < S2048x2050.numel
  shapeCasts_S2048x2050_S2048x2050 : S2048x2050.ShapeCasts S2048x2050
  inb_S128x2050_S128x2050_0_0 : ∀ a, (![0, 0] : Fin 2 → Nat) a + S128x2050.size a ≤ S128x2050.size a
  h_S128x2050 : 0 < S128x2050.numel
  slices_S128x2050_o0_2048_S128x1 : S128x2050.Slices ![0, 2048] S128x1
  slices_S128x2050_o0_2047_S128x1 : S128x2050.Slices ![0, 2047] S128x1
  reduces_S128x1_S1 : S128x1.Reduces [0] S1
  shapeCasts_S1_S1x1 : S1.ShapeCasts S1x1
  slices_S4096x2050_S4096x2048_0_0 : S4096x2050.Slices ![0, 0] S4096x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inpos_S1x1_p0_0 : ∀ a, (![0, 0] : Fin 2 → Nat) a < S1x1.size a
  inb_S256x2050_S256x2050_0_0 : ∀ a, (![0, 0] : Fin 2 → Nat) a + S256x2050.size a ≤ S256x2050.size a
  h_S256x2050 : 0 < S256x2050.numel
  shapeCasts_S256x2050_S256x2050 : S256x2050.ShapeCasts S256x2050
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2050_S512x2050_0_0 : ∀ a, (![0, 0] : Fin 2 → Nat) a + S512x2050.size a ≤ S512x2050.size a
  h_S512x2050 : 0 < S512x2050.numel
  shapeCasts_S512x2050_S512x2050 : S512x2050.ShapeCasts S512x2050
  shapeCasts_S1x1_S_ : S1x1.ShapeCasts S_
  dot_S128x2048_S2048x2048_S128x2048_1_0_0_1_n_n_wf : DotDims.WF S128x2048 S2048x2048 S128x2048 [1] [0] [0] [1] [] []
  dot_S128x2048_S2048x2050_S128x2050_1_0_0_1_n_n_wf : DotDims.WF S128x2048 S2048x2050 S128x2050 [1] [0] [0] [1] [] []
  dot_S1024x512_S1024x512_S512x512_0_0_1_1_n_n_wf : DotDims.WF S1024x512 S1024x512 S512x512 [0] [0] [1] [1] [] []
  dot_S512x256_S512x2050_S256x2050_0_0_1_1_n_n_wf : DotDims.WF S512x256 S512x2050 S256x2050 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2050.size a ≤ S2048x2050.size a
  hwx0_3 : ∀ i : grid0.Coords, EltTy.bits .bf16 = 32 ∨ (Rect.block (s := S2048x2050) S2048x2050.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .f32 = 32 ∨ (Rect.block (s := S4096x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2050.size a ≤ S4096x2050.size a
  hwx0_6 : ∀ i : grid0.Coords, EltTy.bits .f32 = 32 ∨ (Rect.block (s := S4096x2050) S128x2050.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x2048.size a
  hwx1_0 : ∀ i : grid1.Coords, EltTy.bits .f32 = 32 ∨ (Rect.block (s := S4096x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x2048.size a
  hwx1_1 : ∀ i : grid1.Coords, EltTy.bits .f32 = 32 ∨ (Rect.block (s := S4096x2048) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .f32 = 32 ∨ (Rect.block (s := S2048x2048) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .f32 = 32 ∨ (Rect.block (s := S2048x2048) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S2048x2048.size a
  hwx1_5 : ∀ i : grid1.Coords, EltTy.bits .f32 = 32 ∨ (Rect.block (s := S2048x2048) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S2048x2048.size a
  hwx1_6 : ∀ i : grid1.Coords, EltTy.bits .f32 = 32 ∨ (Rect.block (s := S2048x2048) S512x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x2048.size a
  hwx2_0 : ∀ i : grid2.Coords, EltTy.bits .f32 = 32 ∨ (Rect.block (s := S4096x2048) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x2048.size a
  hwx2_1 : ∀ i : grid2.Coords, EltTy.bits .f32 = 32 ∨ (Rect.block (s := S4096x2048) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S2048x2048.size a
  hwx2_2 : ∀ i : grid2.Coords, EltTy.bits .f32 = 32 ∨ (Rect.block (s := S2048x2048) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S2048x2048.size a
  hwx2_3 : ∀ i : grid2.Coords, EltTy.bits .f32 = 32 ∨ (Rect.block (s := S2048x2048) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S2048x2048.size a
  hwx2_5 : ∀ i : grid2.Coords, EltTy.bits .f32 = 32 ∨ (Rect.block (s := S2048x2048) S512x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S2048x2048.size a
  hwx2_6 : ∀ i : grid2.Coords, EltTy.bits .f32 = 32 ∨ (Rect.block (s := S2048x2048) S512x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S4096x2048.size a
  hwx3_0 : ∀ i : grid3.Coords, EltTy.bits .f32 = 32 ∨ (Rect.block (s := S4096x2048) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2050.size a ≤ S4096x2050.size a
  hwx3_1 : ∀ i : grid3.Coords, EltTy.bits .f32 = 32 ∨ (Rect.block (s := S4096x2050) S512x2050.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2050.size a ≤ S2048x2050.size a
  hwx3_2 : ∀ i : grid3.Coords, EltTy.bits .f32 = 32 ∨ (Rect.block (s := S2048x2050) S256x2050.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2050.size a ≤ S2048x2050.size a
  hwx3_3 : ∀ i : grid3.Coords, EltTy.bits .f32 = 32 ∨ (Rect.block (s := S2048x2050) S256x2050.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x2050.size a ≤ S2048x2050.size a
  hwx3_5 : ∀ i : grid3.Coords, EltTy.bits .f32 = 32 ∨ (Rect.block (s := S2048x2050) S256x2050.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x2050.size a ≤ S2048x2050.size a
  hwx3_6 : ∀ i : grid3.Coords, EltTy.bits .f32 = 32 ∨ (Rect.block (s := S2048x2050) S256x2050.size (cc3_transform_6 i) (hinb3_6 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x2050_S128x2050_1_0_0_1_n_n : DotDims S128x2048 S2048x2050 S128x2050 where
  lhsContracting := [1]
  rhsContracting := [0]
  lhsNonContracting := [0]
  rhsNonContracting := [1]
  lhsBatch := []
  rhsBatch := []
  wf := dot_S128x2048_S2048x2050_S128x2050_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x256_S512x2050_S256x2050_0_0_1_1_n_n : DotDims S512x256 S512x2050 S256x2050 where
  lhsContracting := [0]
  rhsContracting := [0]
  lhsNonContracting := [1]
  rhsNonContracting := [1]
  lhsBatch := []
  rhsBatch := []
  wf := dot_S512x256_S512x2050_S256x2050_0_0_1_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x2050.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S128x2050.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_3) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_4) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_4) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v12_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12_4) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15_0) S512x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v15_1) S512x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v12_1) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12_2) S512x2050.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S256x2050.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S256x2050.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12_4) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v16_0) S256x2050.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v16_1) S256x2050.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x2050 : Shape := ⟨2, ![2048, 2050]⟩
abbrev S_ : Shape := ⟨0, ![]⟩
abbrev S4096x2050 : Shape := ⟨2, ![4096, 2050]⟩
abbrev S4096x1 : Shape := ⟨2, ![4096, 1]⟩
abbrev S2048x4096 : Shape := ⟨2, ![2048, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2050, .f32⟩
  | .hbm, ⟨4, _⟩ => ⟨S2048x2048, .f32⟩
  | .hbm, ⟨5, _⟩ => ⟨S2048x2048, .f32⟩
  | .hbm, ⟨6, _⟩ => ⟨S2048x2050, .f32⟩
  | .hbm, ⟨7, _⟩ => ⟨S2048x2048, .f32⟩
  | .hbm, ⟨8, _⟩ => ⟨S2048x2048, .f32⟩
  | .hbm, ⟨9, _⟩ => ⟨S2048x2050, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S2048x2050, .f32⟩
  | .hbm, ⟨26, _⟩ => ⟨S2048x2050, .f32⟩
  | .hbm, ⟨27, _⟩ => ⟨S2048x2050, .f32⟩
  | .hbm, ⟨28, _⟩ => ⟨S4096x2050, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x2050, .f32⟩
  | .hbm, ⟨43, _⟩ => ⟨S2048x2050, .f32⟩
  | .hbm, ⟨44, _⟩ => ⟨S2048x4096, .f32⟩
  | .hbm, ⟨45, _⟩ => ⟨S2048x2050, .f32⟩
  | .hbm, ⟨46, _⟩ => ⟨S_, .f32⟩
  | .hbm, ⟨47, _⟩ => ⟨S2048x2050, .f32⟩
  | .hbm, ⟨48, _⟩ => ⟨S2048x2050, .f32⟩
  | .hbm, ⟨49, _⟩ => ⟨S2048x2050, .f32⟩
  | .hbm, ⟨50, _⟩ => ⟨S2048x2050, .f32⟩
  | .hbm, ⟨51, _⟩ => ⟨S2048x2050, .f32⟩
  | .hbm, ⟨52, _⟩ => ⟨S2048x2050, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048x2050, .f32⟩
  | .hbm, ⟨57, _⟩ => ⟨S2048x2050, .f32⟩
  | .hbm, ⟨58, _⟩ => ⟨S_, .f32⟩
  | .hbm, ⟨59, _⟩ => ⟨S2048x2050, .f32⟩
  | .hbm, ⟨60, _⟩ => ⟨S2048x2050, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S2048x4096, .f32⟩
  | .hbm, ⟨65, _⟩ => ⟨S2048x2048, .f32⟩
  | .hbm, ⟨66, _⟩ => ⟨S_, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048x2048, .f32⟩
  | .hbm, ⟨83, _⟩ => ⟨S2048x2048, .f32⟩
  | .hbm, ⟨84, _⟩ => ⟨S2048x4096, .f32⟩
  | .hbm, ⟨85, _⟩ => ⟨S2048x2048, .f32⟩
  | .hbm, ⟨86, _⟩ => ⟨S_, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S2048x2048, .f32⟩
  | .hbm, ⟨97, _⟩ => ⟨S2048x2048, .f32⟩
  | .hbm, ⟨98, _⟩ => ⟨S_, .f32⟩
  | .hbm, ⟨99, _⟩ => ⟨S2048x2048, .f32⟩
  | .hbm, ⟨100, _⟩ => ⟨S2048x2048, .f32⟩
  | .hbm, ⟨101, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_13 : Ref sig .tc := ⟨.hbm, 93, rfl⟩
abbrev main_cst_14 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v54 : Ref sig .tc := ⟨.hbm, 100, rfl⟩
abbrev main_v55 : Ref sig .tc := ⟨.hbm, 101, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S4096x2048 : S_.BroadcastsInDim S4096x2048 (![] : Fin 0 → Fin S4096x2048.rank)
  bcast_S_S2048x2050 : S_.BroadcastsInDim S2048x2050 (![] : Fin 0 → Fin S2048x2050.rank)
  slices_S4096x2050_S4096x1_0_2048 : S4096x2050.Slices ![0, 2048] S4096x1
  reducesTo_S4096x1_S_d0_1 : S4096x1.ReducesTo [0, 1] S_
  h_S_ : 0 < S_.numel
  slices_S4096x2050_S4096x1_0_2047 : S4096x2050.Slices ![0, 2047] S4096x1
  transposes_S4096x2048_S2048x4096_1_0 : S4096x2048.Transposes [1, 0] S2048x4096
  slices_S4096x2050_S4096x2048_0_0 : S4096x2050.Slices ![0, 0] S4096x2048
  dot_S4096x2048_S2048x2048_S4096x2048_1_0_0_1_n_n_wf : DotDims.WF S4096x2048 S2048x2048 S4096x2048 [1] [0] [0] [1] [] []
  dot_S4096x2048_S2048x2050_S4096x2050_1_0_0_1_n_n_wf : DotDims.WF S4096x2048 S2048x2050 S4096x2050 [1] [0] [0] [1] [] []
  dot_S2048x4096_S4096x2050_S2048x2050_1_0_0_1_n_n_wf : DotDims.WF S2048x4096 S4096x2050 S2048x2050 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x2050_S4096x2050_1_0_0_1_n_n : DotDims S4096x2048 S2048x2050 S4096x2050 where
  lhsContracting := [1]
  rhsContracting := [0]
  lhsNonContracting := [0]
  rhsNonContracting := [1]
  lhsBatch := []
  rhsBatch := []
  wf := dot_S4096x2048_S2048x2050_S4096x2050_1_0_0_1_n_n_wf
def dot_S2048x4096_S4096x2050_S2048x2050_1_0_0_1_n_n : DotDims S2048x4096 S4096x2050 S2048x2050 where
  lhsContracting := [1]
  rhsContracting := [0]
  lhsNonContracting := [0]
  rhsNonContracting := [1]
  lhsBatch := []
  rhsBatch := []
  wf := dot_S2048x4096_S4096x2050_S2048x2050_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.LibWhole.lean ====
import Idealize.ShloMosaic.Lib.Pipeline.FrameBody
import Idealize.ShloMosaic.Lib.Pipeline.Value

namespace Idealize.ShloMosaic.View

variable {sig : RefSig} {κ : Kind} {sp : Space} {S : Shape} {e : EltTy} {Val : EltTy → Type}

-- A buffer whose last store covers it whole reads back that store's value.
theorem read_writes_whole_cons [∀ e, Nonempty (Val e)] (v : View sig κ sp S e) (f : v.ty.Contents Val)
    {off : Fin S.rank → Nat} (h : off = fun _ => 0) (inb : ∀ a, off a + S.size a ≤ S.size a)
    (w : S.Idx → Val e) (L : List (Piece Val S e)) :
    v.read Val (v.writes Val f ((⟨Rect.unit off S.size inb, w⟩ : Piece Val S e) :: L)) = w :=
  (read_writes_eq_canon v f _ (fun y => ⟨_, List.mem_cons_self, mem_set_unit_zero h inb y⟩)).trans
    (canon_cons_unit_zero h inb w L)

theorem readCov_whole_cons [∀ e, Nonempty (Val e)] (v : View sig κ sp S e)
    {off : Fin S.rank → Nat} (h : off = fun _ => 0) (inb : ∀ a, off a + S.size a ≤ S.size a)
    (w : S.Idx → Val e) (L : List (Piece Val S e)) :
    v.readCov ((⟨Rect.unit off S.size inb, w⟩ : Piece Val S e) :: L) (Rect.unit off S.size inb).toLoadRect = w := by
  rw [readCov_eq_canon_ld _ _ _ (fun y => ⟨_, List.mem_cons_self, mem_set_unit_zero h inb y⟩),
    canon_cons_unit_zero h inb w L, ld_unit_zero h inb]

end Idealize.ShloMosaic.View
-- ==== Proof.KIR1Body.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.LibWhole
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem leavesExact_live {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

-- If the window is live exactly where `p` holds, contents that are `after` there and `before` elsewhere meet `leavesExact`.
theorem leavesExact_ite {cfg : Cfg sig Λ₀} {c : Dev nD} (dat : Dat τ (Elt F) Unit ℕ (UR sig nD τ) ℕ cfg c) (w : Fin cfg.W) (t : Fin cfg.N)
    (p : Prop) [Decidable p] (hl : p → cfg.idle w (cfg.grid.coords t) = false)
    (hi : ¬p → cfg.idle w (cfg.grid.coords t) = true ∧ (cfg.win w).flush t = false) (d) (X) (hX : dat.after w t = X) :
    owns (c : Thread nD τ) ((cfg.win w).stage (cfg.slots t w)) fullShare (if p then X else dat.before w t d) ⊢ dat.leavesExact w t := by
  subst hX
  by_cases h : p
  · rw [if_pos h, leavesExact_live dat w t (hl h)]
  · rw [if_neg h, Dat.leavesExact_idle dat w t (hi h).1 (hi h).2]
    iintro H; iexists d; iexact H

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

theorem hcond1_0 : ∀ t : Fin cfg1.N, cond1_0 (grid1.coords t) ↔ t.val % 4 = 0 := by decide +kernel
theorem hcond1_1 : ∀ t : Fin cfg1.N, cond1_1 (grid1.coords t) ↔ t.val % 4 = 3 := by decide +kernel

theorem live1 : ∀ (w : Fin cfg1.W) (t : Fin cfg1.N), w.val < 5 ∨ cond1_1 (grid1.coords t) → cfg1.idle w (grid1.coords t) = false := by decide +kernel
theorem idle1 : ∀ (w : Fin cfg1.W) (t : Fin cfg1.N), 5 ≤ w.val → ¬cond1_1 (grid1.coords t) →
    cfg1.idle w (grid1.coords t) = true ∧ (cfg1.win w).flush t = false := by decide +kernel

abbrev scM1 : Memref sig .tc .vmem S512x512 .f32 := Memref.whole cc1_scratch0

-- The running sum after the body: the point's product added to zeros where the body first clears the scratch, else to what it held.
abbrev acc1 (i : grid1.Coords) (x0 : Vec F S1024x512 .f32) (x1 : Vec F S1024x512 .f32) (xs : Vec F S512x512 .f32) : Vec F S512x512 .f32 :=
  k1_pay2 x0 x1 (if cond1_0 i then k1_pay1 else xs)

-- The body in all its control cases at once: the inputs stay, the scratch takes the running sum, the outputs are stored from it where k is last.
theorem sound1 (c : Dev nD) (i : grid1.Coords) (hx : cond1_0 i → ¬cond1_1 i)
    (arg3 : Memref sig .tc .vmem S1024x512 .f32) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S1x1 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (x0 : Vec F S1024x512 .f32) (x1 : Vec F S1024x512 .f32) (x2 x3 : Vec F S512x512 .f32) (x4 : Vec F S1x1 .f32) (x5 x6 xs : Vec F S512x512 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare x5 ∗ owns (c : Thread nD τ) arg9 fullShare x6 ∗ owns (c : Thread nD τ) arg10 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (if cond1_1 i then k1_pay3 x2 (acc1 i x0 x1 xs) else x5)
            ∗ owns (c : Thread nD τ) arg9 fullShare (if cond1_1 i then k1_pay4 x2 (acc1 i x0 x1 xs) x3 x4 else x6)
            ∗ owns (c : Thread nD τ) arg10 fullShare (acc1 i x0 x1 xs)) -∗ K ⟨⟩))
      ⊢ wp frame (wpE (defs₀ (F := F)) Variants.none c none) E (cc1_kernel i arg3 harg3 arg4 harg4 arg5 harg5 arg6 harg6 arg7 harg7 arg8 harg8 arg9 harg9 arg10 harg10) K := by
  unfold acc1
  by_cases hc0 : cond1_0 i <;> by_cases hc1 : cond1_1 i
  · exact absurd hc1 (hx hc0)
  all_goals
    first | rw [if_pos hc0] | rw [if_neg hc0]
    first | rw [if_pos hc1, if_pos hc1] | rw [if_neg hc1, if_neg hc1]
    simp only [cc1_kernel_eq_skeleton]; unfold cc1_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    subst hf0 hf1 hf2 hf3 hf4 hf5 hf6 hfs
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact HS
    all_goals
      ipureintro
      first
      | with_reducible rfl
      | sl_unfold_run_names
        refine (View.read_writes_whole_cons _ _ hz2 _ _ _).trans ?_
        simp only [View.readAt_eq_ld, View.ld_unit_zero (S := S512x512) hz2, View.ld_unit_zero (S := S1024x512) hz2, View.ld_unit_zero (S := S1x1) hz2, View.readCov_whole_cons (S := S512x512) (h := hz2)]

end Cert.KernelIdeal.Hand

end
-- ==== Proof.KIR0.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.LibWhole
import proofs.«138652_j14508399526340_1_alg».proof.Proof.KIR1Body
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

theorem hcond0_0 : ∀ t : Fin cfg0.N, cond0_0 (grid0.coords t) ↔ t.val % 32 = 0 :=
  (by decide +kernel : ∀ t : Fin grid0.N, cond0_0 (grid0.coords t) ↔ t.val % 32 = 0)
theorem hcond0_1 : ∀ t : Fin cfg0.N, cond0_1 (grid0.coords t) ↔ t.val % 32 = 31 :=
  (by decide +kernel : ∀ t : Fin grid0.N, cond0_1 (grid0.coords t) ↔ t.val % 32 = 31)

theorem out0 : ∀ (w : Fin cfg0.W) (t : Fin cfg0.N), 7 ≤ w.val →
    (cond0_1 (grid0.coords t) → cfg0.idle w (grid0.coords t) = false)
      ∧ (¬cond0_1 (grid0.coords t) → cfg0.idle w (grid0.coords t) = true ∧ (cfg0.win w).flush t = false) := by decide +kernel

abbrev scM0_0 : Memref sig .tc .vmem S1x1 .f32 := Memref.whole cc0_scratch0
abbrev scM0_1 : Memref sig .tc .vmem S1x1 .f32 := Memref.whole cc0_scratch1

set_option maxHeartbeats 300000 in
-- One run of the body for all points: the guards only choose what the two cells are added to and whether the scalar outputs are stored.
theorem sound0 (c : Dev nD) (i : grid0.Coords)
    (arg1 : Memref sig .tc .vmem S128x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S2048x2050 .bf16) (harg4 : arg4.IsWhole)
    (arg5 : Memref sig .tc .vmem S128x2048 .f32) (harg5 : arg5.IsWhole) (arg6 : Memref sig .tc .vmem S128x2048 .f32) (harg6 : arg6.IsWhole)
    (arg7 : Memref sig .tc .vmem S128x2050 .f32) (harg7 : arg7.IsWhole) (arg8 : Memref sig .tc .vmem S1x1 .f32) (harg8 : arg8.IsWhole)
    (arg9 : Memref sig .tc .vmem S1x1 .f32) (harg9 : arg9.IsWhole) (arg10 : Memref sig .tc .vmem S1x1 .f32) (harg10 : arg10.IsWhole)
    (arg11 : Memref sig .tc .vmem S1x1 .f32) (harg11 : arg11.IsWhole)
    (x0 : Vec F S128x2048 .f32) (x1 x2 : Vec F S2048x2048 .bf16) (x3 : Vec F S2048x2050 .bf16) (d4 d5 : Vec F S128x2048 .f32) (d6 : Vec F S128x2050 .f32)
    (xi7 xi8 xs0 xs1 : Vec F S1x1 .f32) (hx : cond0_0 i → ¬cond0_1 i) (E : Set ℕ) (K : PUnit → sProp 𝕄) :
    iprop(owns c.tc arg1 fullShare x0 ∗ owns c.tc arg2 fullShare x1 ∗ owns c.tc arg3 fullShare x2 ∗ owns c.tc arg4 fullShare x3
        ∗ owns c.tc arg5 fullShare d4 ∗ owns c.tc arg6 fullShare d5 ∗ owns c.tc arg7 fullShare d6
        ∗ owns c.tc arg8 fullShare xi7 ∗ owns c.tc arg9 fullShare xi8
        ∗ owns c.tc arg10 fullShare xs0 ∗ owns c.tc arg11 fullShare xs1
        ∗ (iprop(owns c.tc arg1 fullShare x0 ∗ owns c.tc arg2 fullShare x1 ∗ owns c.tc arg3 fullShare x2 ∗ owns c.tc arg4 fullShare x3
            ∗ owns c.tc arg5 fullShare (k0_pay7 x0 x1) ∗ owns c.tc arg6 fullShare (k0_pay8 x0 x1 x2) ∗ owns c.tc arg7 fullShare (k0_pay9 x0 x1 x2 x3)
            ∗ owns c.tc arg8 fullShare (if cond0_1 i then k0_pay3 (k0_pay1 (k0_pay11 x0 x1 x2 x3 (if cond0_0 i then k0_pay5 else xs0))) else xi7)
            ∗ owns c.tc arg9 fullShare (if cond0_1 i then k0_pay4 (k0_pay2 (k0_pay10 x0 x1 x2 x3) (if cond0_0 i then k0_pay6 else xs1)) else xi8)
            ∗ owns c.tc arg10 fullShare (k0_pay1 (k0_pay11 x0 x1 x2 x3 (if cond0_0 i then k0_pay5 else xs0)))
            ∗ owns c.tc arg11 fullShare (k0_pay2 (k0_pay10 x0 x1 x2 x3) (if cond0_0 i then k0_pay6 else xs1))) -∗ K ⟨⟩))
      ⊢ wp frame (wpE (defs₀ (F := F)) Variants.none c none) E (cc0__fwd_kernel i arg1 harg1 arg2 harg2 arg3 harg3 arg4 harg4 arg5 harg5 arg6 harg6 arg7 harg7 arg8 harg8 arg9 harg9 arg10 harg10 arg11 harg11) K := by
  by_cases hc0 : cond0_0 i <;> by_cases hc1 : cond0_1 i
  · exact absurd hc1 (hx hc0)
  all_goals
    (first | rw [if_pos hc0, if_pos hc0] | rw [if_neg hc0, if_neg hc0]) <;> (first | rw [if_pos hc1, if_pos hc1] | rw [if_neg hc1, if_neg hc1])
    simp only [cc0__fwd_kernel_eq_skeleton]; unfold cc0__fwd_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    subst hf0 hf1 hf2 hf3 hf4 hf5 hf6 hf7 hf8 hfs0 hfs1
    sl_exec (disch := first | exact hc0 | exact hc1)
    sl_step
    iapply Hk
    isplitl [H0]; swap; isplitl [H1]; swap; isplitl [H2]; swap; isplitl [H3]; swap; isplitl [H4]; swap; isplitl [H5]; swap
    isplitl [H6]; swap; isplitl [H7]; swap; isplitl [H8]; swap; isplitl [HS0]; swap
    all_goals (iexists _; isplitr; swap; iassumption; ipureintro)
    all_goals first | rfl | (sl_unfold_run_names; refine (View.read_writes_whole_cons _ _ hz2 _ _ _).trans ?_; simp only [View.readAt_eq_ld, View.ld_unit_zero (S := S128x2048) hz2, View.ld_unit_zero (S := S2048x2048) hz2, View.ld_unit_zero (S := S2048x2050) hz2, View.ld_unit_zero (S := S1x1) hz2, View.readCov_whole_cons (S := S1x1) (h := hz2)])

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def sc0_0 (c : Dev nD) : (n : ℕ) → n < cfg0.N → Vec F S1x1 .f32
  | 0, hn => k0_pay1 (k0_pay11 (iblk0 V c 0 ⟨0, hn⟩) (iblk0 V c 1 ⟨0, hn⟩) (iblk0 V c 2 ⟨0, hn⟩) (iblk0 V c 3 ⟨0, hn⟩) k0_pay5)
  | n + 1, hn =>
    if (n + 1) % 32 = 0 then k0_pay1 (k0_pay11 (iblk0 V c 0 ⟨n + 1, hn⟩) (iblk0 V c 1 ⟨n + 1, hn⟩) (iblk0 V c 2 ⟨n + 1, hn⟩) (iblk0 V c 3 ⟨n + 1, hn⟩) k0_pay5)
    else k0_pay1 (k0_pay11 (iblk0 V c 0 ⟨n + 1, hn⟩) (iblk0 V c 1 ⟨n + 1, hn⟩) (iblk0 V c 2 ⟨n + 1, hn⟩) (iblk0 V c 3 ⟨n + 1, hn⟩) (sc0_0 c n (Nat.lt_of_succ_lt hn)))

def sc0_1 (c : Dev nD) : (n : ℕ) → n < cfg0.N → Vec F S1x1 .f32
  | 0, hn => k0_pay2 (k0_pay10 (iblk0 V c 0 ⟨0, hn⟩) (iblk0 V c 1 ⟨0, hn⟩) (iblk0 V c 2 ⟨0, hn⟩) (iblk0 V c 3 ⟨0, hn⟩)) k0_pay6
  | n + 1, hn =>
    if (n + 1) % 32 = 0 then k0_pay2 (k0_pay10 (iblk0 V c 0 ⟨n + 1, hn⟩) (iblk0 V c 1 ⟨n + 1, hn⟩) (iblk0 V c 2 ⟨n + 1, hn⟩) (iblk0 V c 3 ⟨n + 1, hn⟩)) k0_pay6
    else k0_pay2 (k0_pay10 (iblk0 V c 0 ⟨n + 1, hn⟩) (iblk0 V c 1 ⟨n + 1, hn⟩) (iblk0 V c 2 ⟨n + 1, hn⟩) (iblk0 V c 3 ⟨n + 1, hn⟩)) (sc0_1 c n (Nat.lt_of_succ_lt hn))

-- The point's sums added to what the cells held (to the zeros at the first point) are the running sums.
theorem sc0_eq (c : Dev nD) (t : Fin cfg0.N) (d0 d1 : Vec F S1x1 .f32)
    (hd : t.val ≠ 0 → d0 = sc0_0 V c (t.val - 1) (by omega) ∧ d1 = sc0_1 V c (t.val - 1) (by omega)) :
    k0_pay1 (k0_pay11 (iblk0 V c 0 t) (iblk0 V c 1 t) (iblk0 V c 2 t) (iblk0 V c 3 t) (if cond0_0 (grid0.coords t) then k0_pay5 else d0)) = sc0_0 V c t.val t.isLt
      ∧ k0_pay2 (k0_pay10 (iblk0 V c 0 t) (iblk0 V c 1 t) (iblk0 V c 2 t) (iblk0 V c 3 t)) (if cond0_0 (grid0.coords t) then k0_pay6 else d1) = sc0_1 V c t.val t.isLt := by
  obtain ⟨n, hn⟩ := t
  by_cases h0 : n % 32 = 0
  · rw [if_pos ((hcond0_0 ⟨n, hn⟩).mpr h0), if_pos ((hcond0_0 ⟨n, hn⟩).mpr h0)]
    cases n with
    | zero => exact ⟨rfl, rfl⟩
    | succ n => exact ⟨((if_pos h0).trans rfl).symm, ((if_pos h0).trans rfl).symm⟩
  · rw [if_neg fun h => h0 ((hcond0_0 ⟨n, hn⟩).mp h), if_neg fun h => h0 ((hcond0_0 ⟨n, hn⟩).mp h)]
    cases n with
    | zero => exact absurd (Nat.zero_mod _) h0
    | succ n =>
      obtain ⟨rfl, rfl⟩ := hd (Nat.succ_ne_zero n)
      exact ⟨((if_neg h0).trans rfl).symm, ((if_neg h0).trans rfl).symm⟩

theorem PhiA0_eq (c : Dev nD) :
    (Pipeline.ΦA spec0 c : sProp 𝕄)
      = iprop(iprop(iprop((∃ d, owns c.tc scM0_0 fullShare d) ∗ (∃ d, owns c.tc scM0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

-- Before position n the two cells hold some contents: from the second point on, the running sums the point before left.
def PhiS0 (c : Dev nD) (n : ℕ) (hn : n ≤ cfg0.N) : sProp 𝕄 :=
  iprop(∃ d0 d1, ⌜∀ h : n ≠ 0, d0 = sc0_0 V c (n - 1) (by omega) ∧ d1 = sc0_1 V c (n - 1) (by omega)⌝
    ∗ owns c.tc scM0_0 fullShare d0 ∗ owns c.tc scM0_1 fullShare d1
    ∗ Pipeline.scopedRestBut (Ix := Unit) (Name := ℕ) (U := UR sig nD τ) (Lvl := ℕ) (Val := Elt F) spec0 c [cc0_scratch0, cc0_scratch1] ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay7 (iblk0 V c 0 t) (iblk0 V c 1 t)
    | ⟨5, _⟩ => k0_pay8 (iblk0 V c 0 t) (iblk0 V c 1 t) (iblk0 V c 2 t)
    | ⟨6, _⟩ => k0_pay9 (iblk0 V c 0 t) (iblk0 V c 1 t) (iblk0 V c 2 t) (iblk0 V c 3 t)
    | ⟨7, _⟩ => k0_pay3 (sc0_0 V c t.val t.isLt)
    | ⟨8, _⟩ => k0_pay4 (sc0_1 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_4 (c : Dev nD) (t : Fin cfg0.N) : (dat0 V c).after 4 t = k0_pay7 (iblk0 V c 0 t) (iblk0 V c 1 t) := by dsimp only [dat0]
theorem after0_5 (c : Dev nD) (t : Fin cfg0.N) : (dat0 V c).after 5 t = k0_pay8 (iblk0 V c 0 t) (iblk0 V c 1 t) (iblk0 V c 2 t) := by dsimp only [dat0]
theorem after0_6 (c : Dev nD) (t : Fin cfg0.N) : (dat0 V c).after 6 t = k0_pay9 (iblk0 V c 0 t) (iblk0 V c 1 t) (iblk0 V c 2 t) (iblk0 V c 3 t) := by dsimp only [dat0]
theorem after0_7 (c : Dev nD) (t : Fin cfg0.N) : (dat0 V c).after 7 t = k0_pay3 (sc0_0 V c t.val t.isLt) := by dsimp only [dat0]
theorem after0_8 (c : Dev nD) (t : Fin cfg0.N) : (dat0 V c).after 8 t = k0_pay4 (sc0_1 V c t.val t.isLt) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  dsimp only
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_castSucc, after0_4, after0_5, after0_6]
  unfold PhiS0
  iintro ⟨⟨%d0, %d1, %hd, HS0, HS1, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply (sound0 c (grid0.coords t) _ _ _ _ _ _ _ _ _ _ _ _ _ _ _ _ _ _ _ _ _ _ (iblk0 V c 0 t) (iblk0 V c 1 t) (iblk0 V c 2 t) (iblk0 V c 3 t) _ _ _ _ _ _ _
    (fun h0 h1 => by have := (hcond0_0 t).mp h0; have := (hcond0_1 t).mp h1; omega) Set.univ _)
  isplitl [H0]; iexact H0; isplitl [H1]; iexact H1; isplitl [H2]; iexact H2; isplitl [H3]; iexact H3; isplitl [H4]; iexact H4; isplitl [H5]; iexact H5
  isplitl [H6]; iexact H6; isplitl [H7]; iexact H7; isplitl [H8]; iexact H8; isplitl [HS0]; iexact HS0; isplitl [HS1]; iexact HS1
  iintro ⟨H0, H1, H2, H3, H4, H5, H6, H7, H8, HS0, HS1⟩
  isplitl [HS0 HS1 HR Hg]
  · iexists _, _; isplitr; swap
    · iframe
    ipureintro; exact fun _ => sc0_eq V c t d0 d1 hd
  isplitl [Ho]; iexact Ho; isplitl [H0]; iexact H0; isplitl [H1]; iexact H1; isplitl [H2]; iexact H2; isplitl [H3]; iexact H3
  isplitl [H4]; iexact H4; isplitl [H5]; iexact H5; isplitl [H6]; iexact H6
  isplitl [H7]
  · iapply (leavesExact_ite (dat0 V c) 7 t _ (out0 7 t (by decide)).1 (out0 7 t (by decide)).2 _ _ ((after0_7 V c t).trans (congrArg k0_pay3 (sc0_eq V c t d0 d1 hd).1.symm))) $$ H7
  iapply (leavesExact_ite (dat0 V c) 8 t _ (out0 8 t (by decide)).1 (out0 8 t (by decide)).2 _ _ ((after0_8 V c t).trans (congrArg k0_pay4 (sc0_eq V c t d0 d1 hd).2.symm))) $$ H8

theorem hin0 (c : Dev nD) : Pipeline.ΦA spec0 c ⊢ (dat0 V c).Φ 0 := by
  rw [show (dat0 V c).Φ 0 = PhiS0 V c 0 (Nat.zero_le _) from rfl, PhiA0_eq]; unfold PhiS0
  iintro ⟨⟨⟨⟨%d0, H0⟩, ⟨%d1, H1⟩⟩, HR⟩, Hg⟩
  iexists d0, d1; isplitr; · ipureintro; exact fun h => absurd rfl h
  iframe

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]; unfold PhiS0
  iintro ⟨%d0, %d1, -, H0, H1, HR, Hg⟩
  iframe HR Hg
  isplitl [H0]; iexists _; iexact H0; iexists _; iexact H1

end

end Cert.KernelIdeal.Hand

end
-- ==== Proof.KIR1Dat.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.LibWhole
import proofs.«138652_j14508399526340_1_alg».proof.Proof.KIR1Body
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sc1 (c : Dev nD) : (n : ℕ) → n < cfg1.N → Vec F S512x512 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (sc1 c n (Nat.lt_of_succ_lt hn))

theorem sc1_first (c : Dev nD) (t : Fin cfg1.N) (h0 : t.val % 4 = 0) :
    sc1 V c t.val t.isLt = k1_pay2 (iblk1 V c 0 t) (iblk1 V c 1 t) k1_pay1 := by
  obtain ⟨n, hn⟩ := t
  cases n with
  | zero => rfl
  | succ n => exact (if_pos h0).trans rfl

theorem sc1_next (c : Dev nD) (t : Fin cfg1.N) (h0 : ¬t.val % 4 = 0) :
    sc1 V c t.val t.isLt = k1_pay2 (iblk1 V c 0 t) (iblk1 V c 1 t) (sc1 V c (t.val - 1) (Nat.lt_of_le_of_lt (Nat.sub_le _ _) t.isLt)) := by
  obtain ⟨n, hn⟩ := t
  cases n with
  | zero => exact absurd (Nat.zero_mod _) h0
  | succ n => exact (if_neg h0).trans rfl

-- The running sum advances by the body's step from whatever the point before left.
theorem sc1_step (c : Dev nD) (t : Fin cfg1.N) (xs : Vec F S512x512 .f32)
    (hxs : t.val ≠ 0 → xs = sc1 V c (t.val - 1) (Nat.lt_of_le_of_lt (Nat.sub_le _ _) t.isLt)) :
    acc1 (grid1.coords t) (iblk1 V c 0 t) (iblk1 V c 1 t) xs = sc1 V c t.val t.isLt := by
  unfold acc1
  by_cases h0 : t.val % 4 = 0
  · rw [if_pos ((hcond1_0 t).mpr h0), sc1_first V c t h0]
  · rw [if_neg fun h => h0 ((hcond1_0 t).mp h), sc1_next V c t h0, hxs fun e => h0 (by rw [e])]

-- The region's invariant with the scratch held as `P`.
abbrev inv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = inv1 c iprop(∃ d, owns (c : Thread nD τ) scM1 fullShare d) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => inv1 c (owns (c : Thread nD τ) scM1 fullShare (sc1 V c n hn))

theorem inv1_mono (c : Dev nD) {P Q : sProp 𝕄} (h : P ⊢ Q) : inv1 c P ⊢ inv1 c Q := sep_mono_left (sep_mono_left h)

-- Before any point the invariant holds the scratch at some contents: after a first point, at the running sum so far.
theorem PhiS1_open (c : Dev nD) (n : ℕ) (h : n ≤ cfg1.N) :
    PhiS1 V c n h ⊢ inv1 c iprop(∃ xs, ⌜∀ hn : n ≠ 0, xs = sc1 V c (n - 1) (by omega)⌝ ∗ owns (c : Thread nD τ) scM1 fullShare xs) := by
  cases n with
  | zero =>
    rw [show PhiS1 V c 0 h = Pipeline.ΦA spec1 c from rfl, PhiA1_eq]
    refine inv1_mono c ?_
    iintro ⟨%d, HS⟩; iexists d; isplitr; · ipureintro; exact fun hn => absurd rfl hn
    iexact HS
  | succ n =>
    refine inv1_mono c ?_
    iintro HS; iexists sc1 V c n h; isplitr; · ipureintro; exact fun _ => rfl
    iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (iblk1 V c 2 t) (sc1 V c t.val t.isLt)
    | ⟨6, _⟩ => k1_pay4 (iblk1 V c 2 t) (sc1 V c t.val t.isLt) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = k1_pay3 (iblk1 V c 2 t) (sc1 V c t.val t.isLt) := by dsimp only [dat1]
theorem after1_6 (c : Dev nD) (t : Fin cfg1.N) : (dat1 V c).after 6 t = k1_pay4 (iblk1 V c 2 t) (sc1 V c t.val t.isLt) (iblk1 V c 3 t) (iblk1 V c 4 t) := by dsimp only [dat1]

-- The body finds every input block in place and leaves it so.
theorem in1 (c : Dev nD) (t : Fin cfg1.N) :
    ((dat1 V c).after 0 t = iblk1 V c 0 t ∧ ∀ d, (dat1 V c).before 0 t d = iblk1 V c 0 t)
    ∧ ((dat1 V c).after 1 t = iblk1 V c 1 t ∧ ∀ d, (dat1 V c).before 1 t d = iblk1 V c 1 t)
    ∧ ((dat1 V c).after 2 t = iblk1 V c 2 t ∧ ∀ d, (dat1 V c).before 2 t d = iblk1 V c 2 t)
    ∧ ((dat1 V c).after 3 t = iblk1 V c 3 t ∧ ∀ d, (dat1 V c).before 3 t d = iblk1 V c 3 t)
    ∧ ((dat1 V c).after 4 t = iblk1 V c 4 t ∧ ∀ d, (dat1 V c).before 4 t d = iblk1 V c 4 t) := by
  refine ⟨?_, ?_, ?_, ?_, ?_⟩ <;> exact ⟨by dsimp only [dat1], fun d =>
    ((dat1 V c).before_in_eq_fetched _ rfl (fun _ => rfl) (fun _ _ _ => rfl) (fun t => by dsimp only [dat1, Dat.blockOf, iblk1]; try rfl) t d).trans
      (by dsimp only [dat1, Dat.fetched, Dat.blockOf, iblk1]; try rfl)⟩

abbrev pre1 (c : Dev nD) (t : Fin cfg1.N) (w : Fin cfg1.W) : sProp 𝕄 :=
  iprop(∃ d, owns (c : Thread nD τ) ((cfg1.win w).stage (cfg1.slots t w)) fullShare ((dat1 V c).before w t d))

-- The body at any point: the invariant hands it the scratch and takes it back one step on; the inputs stay, the outputs follow k.
theorem sound_body1 (c : Dev nD) (t : Fin cfg1.N) :
    iprop((dat1 V c).Φ t.castSucc ∗ (dat1 V c).owesAt () t.castSucc
        ∗ pre1 V c t 0 ∗ pre1 V c t 1 ∗ pre1 V c t 2 ∗ pre1 V c t 3 ∗ pre1 V c t 4 ∗ pre1 V c t 5 ∗ pre1 V c t 6)
      ⊢ wp frame (wpE (defs₀ (F := F)) Variants.none c none) Set.univ (bodyAt1 t) fun _ =>
        iprop((dat1 V c).Φ t.succ ∗ (dat1 V c).owesAt () t.succ
          ∗ (dat1 V c).leavesExact 0 t ∗ (dat1 V c).leavesExact 1 t ∗ (dat1 V c).leavesExact 2 t ∗ (dat1 V c).leavesExact 3 t
          ∗ (dat1 V c).leavesExact 4 t ∗ (dat1 V c).leavesExact 5 t ∗ (dat1 V c).leavesExact 6 t) := by
  unfold pre1 bodyAt1
  rw [show (dat1 V c).owesAt () t.succ = (dat1 V c).owesAt () t.castSucc from rfl,
    show (dat1 V c).Φ t.succ = inv1 c (owns (c : Thread nD τ) scM1 fullShare (sc1 V c t.val t.isLt)) from rfl,
    show (dat1 V c).Φ t.castSucc = PhiS1 V c t.val (Nat.le_of_lt t.isLt) from rfl,
    leavesExact_live _ 0 t (live1 0 t (.inl (by decide))), leavesExact_live _ 1 t (live1 1 t (.inl (by decide))),
    leavesExact_live _ 2 t (live1 2 t (.inl (by decide))), leavesExact_live _ 3 t (live1 3 t (.inl (by decide))),
    leavesExact_live _ 4 t (live1 4 t (.inl (by decide)))]
  simp only [in1 V c t]
  unfold inv1
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := PhiS1_open V c t.val (Nat.le_of_lt t.isLt) $$ HΦ
  icases HΦ' with ⟨⟨⟨%xs, %hxs, HS⟩, HR⟩, Hg⟩
  iapply (sound1 c (grid1.coords t) (fun h0 h1 => by have := (hcond1_0 t).mp h0; have := (hcond1_1 t).mp h1; omega)
    _ _ _ _ _ _ _ _ _ _ _ _ _ _ _ _ (iblk1 V c 0 t) (iblk1 V c 1 t) (iblk1 V c 2 t) (iblk1 V c 3 t) (iblk1 V c 4 t) _ _ xs Set.univ _)
  rw [sc1_step V c t xs hxs]
  iframe H0 H1 H2 H3 H4 H5 H6 HS
  iintro ⟨H0, H1, H2, H3, H4, H5, H6, HS⟩
  iframe HS HR Hg Ho H0 H1 H2 H3 H4
  isplitl [H5]
  · iapply leavesExact_ite (dat1 V c) 5 t (cond1_1 (grid1.coords t)) (fun h => live1 5 t (.inr h)) (idle1 5 t (by decide)) d5 _ (after1_5 V c t) $$ H5
  · iapply leavesExact_ite (dat1 V c) 6 t (cond1_1 (grid1.coords t)) (fun h => live1 6 t (.inr h)) (idle1 6 t (by decide)) d6 _ (after1_6 V c t) $$ H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  refine (PhiS1_open V c _ _).trans (inv1_mono c ?_)
  iintro ⟨%xs, -, HS⟩; iexists xs; iexact HS

end

end Cert.KernelIdeal.Hand

end
-- ==== Proof.KIR2Body.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.KIR1Body
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1

theorem hcond2_0 : ∀ t : Fin cfg2.N, cond2_0 (grid2.coords t) ↔ t.val % 4 = 0 := by decide +kernel
theorem hcond2_1 : ∀ t : Fin cfg2.N, cond2_1 (grid2.coords t) ↔ t.val % 4 = 3 := by decide +kernel

theorem live2 : ∀ (w : Fin cfg2.W) (t : Fin cfg2.N), w.val < 5 ∨ cond2_1 (grid2.coords t) → cfg2.idle w (grid2.coords t) = false := by decide +kernel
theorem idle2 : ∀ (w : Fin cfg2.W) (t : Fin cfg2.N), 5 ≤ w.val → ¬cond2_1 (grid2.coords t) →
    cfg2.idle w (grid2.coords t) = true ∧ (cfg2.win w).flush t = false := by decide +kernel

abbrev scM2 : Memref sig .tc .vmem S512x512 .f32 := Memref.whole cc2_scratch0

-- The running sum after the body: the point's product added to zeros where the body first clears the scratch, else to what it held.
abbrev acc2 (i : grid2.Coords) (x0 : Vec F S1024x512 .f32) (x1 : Vec F S1024x512 .f32) (xs : Vec F S512x512 .f32) : Vec F S512x512 .f32 :=
  k2_pay2 x0 x1 (if cond2_0 i then k2_pay1 else xs)

-- The body in all its control cases at once: the inputs stay, the scratch takes the running sum, the outputs are stored from it where k is last.
theorem sound2 (c : Dev nD) (i : grid2.Coords) (hx : cond2_0 i → ¬cond2_1 i)
    (arg3 : Memref sig .tc .vmem S1024x512 .f32) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S1x1 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (x0 : Vec F S1024x512 .f32) (x1 : Vec F S1024x512 .f32) (x2 x3 : Vec F S512x512 .f32) (x4 : Vec F S1x1 .f32) (x5 x6 xs : Vec F S512x512 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare x5 ∗ owns (c : Thread nD τ) arg9 fullShare x6 ∗ owns (c : Thread nD τ) arg10 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (if cond2_1 i then k2_pay3 x2 (acc2 i x0 x1 xs) else x5)
            ∗ owns (c : Thread nD τ) arg9 fullShare (if cond2_1 i then k2_pay4 x2 (acc2 i x0 x1 xs) x3 x4 else x6)
            ∗ owns (c : Thread nD τ) arg10 fullShare (acc2 i x0 x1 xs)) -∗ K ⟨⟩))
      ⊢ wp frame (wpE (defs₀ (F := F)) Variants.none c none) E (cc2_kernel i arg3 harg3 arg4 harg4 arg5 harg5 arg6 harg6 arg7 harg7 arg8 harg8 arg9 harg9 arg10 harg10) K := by
  unfold acc2
  by_cases hc0 : cond2_0 i <;> by_cases hc1 : cond2_1 i
  · exact absurd hc1 (hx hc0)
  all_goals
    first | rw [if_pos hc0] | rw [if_neg hc0]
    first | rw [if_pos hc1, if_pos hc1] | rw [if_neg hc1, if_neg hc1]
    simp only [cc2_kernel_eq_skeleton]; unfold cc2_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    subst hf0 hf1 hf2 hf3 hf4 hf5 hf6 hfs
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact HS
    all_goals
      ipureintro
      first
      | with_reducible rfl
      | sl_unfold_run_names
        refine (View.read_writes_whole_cons _ _ hz2 _ _ _).trans ?_
        simp only [View.readAt_eq_ld, View.ld_unit_zero (S := S512x512) hz2, View.ld_unit_zero (S := S1024x512) hz2, View.ld_unit_zero (S := S1x1) hz2, View.readCov_whole_cons (S := S512x512) (h := hz2)]

end Cert.KernelIdeal.Hand

end
-- ==== Proof.KIR2Dat.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.LibWhole
import proofs.«138652_j14508399526340_1_alg».proof.Proof.KIR2Body
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def sc2 (c : Dev nD) : (n : ℕ) → n < cfg2.N → Vec F S512x512 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (sc2 c n (Nat.lt_of_succ_lt hn))

theorem sc2_first (c : Dev nD) (t : Fin cfg2.N) (h0 : t.val % 4 = 0) :
    sc2 V c t.val t.isLt = k2_pay2 (iblk2 V c 0 t) (iblk2 V c 1 t) k2_pay1 := by
  obtain ⟨n, hn⟩ := t
  cases n with
  | zero => rfl
  | succ n => exact (if_pos h0).trans rfl

theorem sc2_next (c : Dev nD) (t : Fin cfg2.N) (h0 : ¬t.val % 4 = 0) :
    sc2 V c t.val t.isLt = k2_pay2 (iblk2 V c 0 t) (iblk2 V c 1 t) (sc2 V c (t.val - 1) (Nat.lt_of_le_of_lt (Nat.sub_le _ _) t.isLt)) := by
  obtain ⟨n, hn⟩ := t
  cases n with
  | zero => exact absurd (Nat.zero_mod _) h0
  | succ n => exact (if_neg h0).trans rfl

-- The running sum advances by the body's step from whatever the point before left.
theorem sc2_step (c : Dev nD) (t : Fin cfg2.N) (xs : Vec F S512x512 .f32)
    (hxs : t.val ≠ 0 → xs = sc2 V c (t.val - 1) (Nat.lt_of_le_of_lt (Nat.sub_le _ _) t.isLt)) :
    acc2 (grid2.coords t) (iblk2 V c 0 t) (iblk2 V c 1 t) xs = sc2 V c t.val t.isLt := by
  unfold acc2
  by_cases h0 : t.val % 4 = 0
  · rw [if_pos ((hcond2_0 t).mpr h0), sc2_first V c t h0]
  · rw [if_neg fun h => h0 ((hcond2_0 t).mp h), sc2_next V c t h0, hxs fun e => h0 (by rw [e])]

-- The region's invariant with the scratch held as `P`.
abbrev inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns (c : Thread nD τ) scM2 fullShare d) := by
  unfold Pipeline.ΦA; rw [scopedRest2_split]; simp only [scM2, owns_whole]; try rfl

def PhiS2 (c : Dev nD) : (n : ℕ) → n ≤ cfg2.N → sProp 𝕄
  | 0, _ => Pipeline.ΦA spec2 c
  | n + 1, hn => inv2 c (owns (c : Thread nD τ) scM2 fullShare (sc2 V c n hn))

theorem inv2_mono (c : Dev nD) {P Q : sProp 𝕄} (h : P ⊢ Q) : inv2 c P ⊢ inv2 c Q := sep_mono_left (sep_mono_left h)

-- Before any point the invariant holds the scratch at some contents: after a first point, at the running sum so far.
theorem PhiS2_open (c : Dev nD) (n : ℕ) (h : n ≤ cfg2.N) :
    PhiS2 V c n h ⊢ inv2 c iprop(∃ xs, ⌜∀ hn : n ≠ 0, xs = sc2 V c (n - 1) (by omega)⌝ ∗ owns (c : Thread nD τ) scM2 fullShare xs) := by
  cases n with
  | zero =>
    rw [show PhiS2 V c 0 h = Pipeline.ΦA spec2 c from rfl, PhiA2_eq]
    refine inv2_mono c ?_
    iintro ⟨%d, HS⟩; iexists d; isplitr; · ipureintro; exact fun hn => absurd rfl hn
    iexact HS
  | succ n =>
    refine inv2_mono c ?_
    iintro HS; iexists sc2 V c n h; isplitr; · ipureintro; exact fun _ => rfl
    iexact HS

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (iblk2 V c 2 t) (sc2 V c t.val t.isLt)
    | ⟨6, _⟩ => k2_pay4 (iblk2 V c 2 t) (sc2 V c t.val t.isLt) (iblk2 V c 3 t) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = k2_pay3 (iblk2 V c 2 t) (sc2 V c t.val t.isLt) := by dsimp only [dat2]
theorem after2_6 (c : Dev nD) (t : Fin cfg2.N) : (dat2 V c).after 6 t = k2_pay4 (iblk2 V c 2 t) (sc2 V c t.val t.isLt) (iblk2 V c 3 t) (iblk2 V c 4 t) := by dsimp only [dat2]

-- The body finds every input block in place and leaves it so.
theorem in2 (c : Dev nD) (t : Fin cfg2.N) :
    ((dat2 V c).after 0 t = iblk2 V c 0 t ∧ ∀ d, (dat2 V c).before 0 t d = iblk2 V c 0 t)
    ∧ ((dat2 V c).after 1 t = iblk2 V c 1 t ∧ ∀ d, (dat2 V c).before 1 t d = iblk2 V c 1 t)
    ∧ ((dat2 V c).after 2 t = iblk2 V c 2 t ∧ ∀ d, (dat2 V c).before 2 t d = iblk2 V c 2 t)
    ∧ ((dat2 V c).after 3 t = iblk2 V c 3 t ∧ ∀ d, (dat2 V c).before 3 t d = iblk2 V c 3 t)
    ∧ ((dat2 V c).after 4 t = iblk2 V c 4 t ∧ ∀ d, (dat2 V c).before 4 t d = iblk2 V c 4 t) := by
  refine ⟨?_, ?_, ?_, ?_, ?_⟩ <;> exact ⟨by dsimp only [dat2], fun d =>
    ((dat2 V c).before_in_eq_fetched _ rfl (fun _ => rfl) (fun _ _ _ => rfl) (fun t => by dsimp only [dat2, Dat.blockOf, iblk2]; try rfl) t d).trans
      (by dsimp only [dat2, Dat.fetched, Dat.blockOf, iblk2]; try rfl)⟩

abbrev pre2 (c : Dev nD) (t : Fin cfg2.N) (w : Fin cfg2.W) : sProp 𝕄 :=
  iprop(∃ d, owns (c : Thread nD τ) ((cfg2.win w).stage (cfg2.slots t w)) fullShare ((dat2 V c).before w t d))

-- The body at any point: the invariant hands it the scratch and takes it back one step on; the inputs stay, the outputs follow k.
theorem sound_body2 (c : Dev nD) (t : Fin cfg2.N) :
    iprop((dat2 V c).Φ t.castSucc ∗ (dat2 V c).owesAt () t.castSucc
        ∗ pre2 V c t 0 ∗ pre2 V c t 1 ∗ pre2 V c t 2 ∗ pre2 V c t 3 ∗ pre2 V c t 4 ∗ pre2 V c t 5 ∗ pre2 V c t 6)
      ⊢ wp frame (wpE (defs₀ (F := F)) Variants.none c none) Set.univ (bodyAt2 t) fun _ =>
        iprop((dat2 V c).Φ t.succ ∗ (dat2 V c).owesAt () t.succ
          ∗ (dat2 V c).leavesExact 0 t ∗ (dat2 V c).leavesExact 1 t ∗ (dat2 V c).leavesExact 2 t ∗ (dat2 V c).leavesExact 3 t
          ∗ (dat2 V c).leavesExact 4 t ∗ (dat2 V c).leavesExact 5 t ∗ (dat2 V c).leavesExact 6 t) := by
  unfold pre2 bodyAt2
  rw [show (dat2 V c).owesAt () t.succ = (dat2 V c).owesAt () t.castSucc from rfl,
    show (dat2 V c).Φ t.succ = inv2 c (owns (c : Thread nD τ) scM2 fullShare (sc2 V c t.val t.isLt)) from rfl,
    show (dat2 V c).Φ t.castSucc = PhiS2 V c t.val (Nat.le_of_lt t.isLt) from rfl,
    leavesExact_live _ 0 t (live2 0 t (.inl (by decide))), leavesExact_live _ 1 t (live2 1 t (.inl (by decide))),
    leavesExact_live _ 2 t (live2 2 t (.inl (by decide))), leavesExact_live _ 3 t (live2 3 t (.inl (by decide))),
    leavesExact_live _ 4 t (live2 4 t (.inl (by decide)))]
  simp only [in2 V c t]
  unfold inv2
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := PhiS2_open V c t.val (Nat.le_of_lt t.isLt) $$ HΦ
  icases HΦ' with ⟨⟨⟨%xs, %hxs, HS⟩, HR⟩, Hg⟩
  iapply (sound2 c (grid2.coords t) (fun h0 h1 => by have := (hcond2_0 t).mp h0; have := (hcond2_1 t).mp h1; omega)
    _ _ _ _ _ _ _ _ _ _ _ _ _ _ _ _ (iblk2 V c 0 t) (iblk2 V c 1 t) (iblk2 V c 2 t) (iblk2 V c 3 t) (iblk2 V c 4 t) _ _ xs Set.univ _)
  rw [sc2_step V c t xs hxs]
  iframe H0 H1 H2 H3 H4 H5 H6 HS
  iintro ⟨H0, H1, H2, H3, H4, H5, H6, HS⟩
  iframe HS HR Hg Ho H0 H1 H2 H3 H4
  isplitl [H5]
  · iapply leavesExact_ite (dat2 V c) 5 t (cond2_1 (grid2.coords t)) (fun h => live2 5 t (.inr h)) (idle2 5 t (by decide)) d5 _ (after2_5 V c t) $$ H5
  · iapply leavesExact_ite (dat2 V c) 6 t (cond2_1 (grid2.coords t)) (fun h => live2 6 t (.inr h)) (idle2 6 t (by decide)) d6 _ (after2_6 V c t) $$ H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  refine (PhiS2_open V c _ _).trans (inv2_mono c ?_)
  iintro ⟨%xs, -, HS⟩; iexists xs; iexact HS

end

end Cert.KernelIdeal.Hand

end
-- ==== Proof.KIR3Body.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.KIR1Body
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1

theorem hcond3_0 : ∀ t : Fin cfg3.N, cond3_0 (grid3.coords t) ↔ t.val % 8 = 0 := by decide +kernel
theorem hcond3_1 : ∀ t : Fin cfg3.N, cond3_1 (grid3.coords t) ↔ t.val % 8 = 7 := by decide +kernel

theorem live3 : ∀ (w : Fin cfg3.W) (t : Fin cfg3.N), w.val < 5 ∨ cond3_1 (grid3.coords t) → cfg3.idle w (grid3.coords t) = false := by decide +kernel
theorem idle3 : ∀ (w : Fin cfg3.W) (t : Fin cfg3.N), 5 ≤ w.val → ¬cond3_1 (grid3.coords t) →
    cfg3.idle w (grid3.coords t) = true ∧ (cfg3.win w).flush t = false := by decide +kernel

abbrev scM3 : Memref sig .tc .vmem S256x2050 .f32 := Memref.whole cc3_scratch0

-- The running sum after the body: the point's product added to zeros where the body first clears the scratch, else to what it held.
abbrev acc3 (i : grid3.Coords) (x0 : Vec F S512x256 .f32) (x1 : Vec F S512x2050 .f32) (xs : Vec F S256x2050 .f32) : Vec F S256x2050 .f32 :=
  k3_pay2 x0 x1 (if cond3_0 i then k3_pay1 else xs)

-- The body in all its control cases at once: the inputs stay, the scratch takes the running sum, the outputs are stored from it where k is last.
theorem sound3 (c : Dev nD) (i : grid3.Coords) (hx : cond3_0 i → ¬cond3_1 i)
    (arg3 : Memref sig .tc .vmem S512x256 .f32) (harg3 : arg3.IsWhole) (arg4 : Memref sig .tc .vmem S512x2050 .f32) (harg4 : arg4.IsWhole)
    (arg5 : Memref sig .tc .vmem S256x2050 .f32) (harg5 : arg5.IsWhole) (arg6 : Memref sig .tc .vmem S256x2050 .f32) (harg6 : arg6.IsWhole)
    (arg7 : Memref sig .tc .vmem S1x1 .f32) (harg7 : arg7.IsWhole) (arg8 : Memref sig .tc .vmem S256x2050 .f32) (harg8 : arg8.IsWhole)
    (arg9 : Memref sig .tc .vmem S256x2050 .f32) (harg9 : arg9.IsWhole) (arg10 : Memref sig .tc .vmem S256x2050 .f32) (harg10 : arg10.IsWhole)
    (x0 : Vec F S512x256 .f32) (x1 : Vec F S512x2050 .f32) (x2 x3 : Vec F S256x2050 .f32) (x4 : Vec F S1x1 .f32) (x5 x6 xs : Vec F S256x2050 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare x5 ∗ owns (c : Thread nD τ) arg9 fullShare x6 ∗ owns (c : Thread nD τ) arg10 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (if cond3_1 i then k3_pay3 x2 (acc3 i x0 x1 xs) else x5)
            ∗ owns (c : Thread nD τ) arg9 fullShare (if cond3_1 i then k3_pay4 x2 (acc3 i x0 x1 xs) x3 x4 else x6)
            ∗ owns (c : Thread nD τ) arg10 fullShare (acc3 i x0 x1 xs)) -∗ K ⟨⟩))
      ⊢ wp frame (wpE (defs₀ (F := F)) Variants.none c none) E (cc3_kernel i arg3 harg3 arg4 harg4 arg5 harg5 arg6 harg6 arg7 harg7 arg8 harg8 arg9 harg9 arg10 harg10) K := by
  unfold acc3
  by_cases hc0 : cond3_0 i <;> by_cases hc1 : cond3_1 i
  · exact absurd hc1 (hx hc0)
  all_goals
    first | rw [if_pos hc0] | rw [if_neg hc0]
    first | rw [if_pos hc1, if_pos hc1] | rw [if_neg hc1, if_neg hc1]
    simp only [cc3_kernel_eq_skeleton]; unfold cc3_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    subst hf0 hf1 hf2 hf3 hf4 hf5 hf6 hfs
    sl_exec (disch := first | exact hc0 | exact hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact HS
    all_goals
      ipureintro
      first
      | with_reducible rfl
      | sl_unfold_run_names
        refine (View.read_writes_whole_cons _ _ hz2 _ _ _).trans ?_
        simp only [View.readAt_eq_ld, View.ld_unit_zero (S := S256x2050) hz2, View.ld_unit_zero (S := S512x256) hz2, View.ld_unit_zero (S := S512x2050) hz2, View.ld_unit_zero (S := S1x1) hz2, View.readCov_whole_cons (S := S256x2050) (h := hz2)]

end Cert.KernelIdeal.Hand

end
-- ==== Proof.KIR3Dat.lean ====
import proofs.«138652_j14508399526340_1_alg».proof.Proof.Gen.KernelIdeal.Launch
import proofs.«138652_j14508399526340_1_alg».proof.Proof.Gen.KernelIdeal.Skeleton
import proofs.«138652_j14508399526340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«138652_j14508399526340_1_alg».proof.Proof.LibWhole
import proofs.«138652_j14508399526340_1_alg».proof.Proof.KIR3Body
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sc3 (c : Dev nD) : (n : ℕ) → n < cfg3.N → Vec F S256x2050 .f32
  | 0, hn => k3_pay2 (iblk3 V c 0 ⟨0, hn⟩) (iblk3 V c 1 ⟨0, hn⟩) k3_pay1
  | n + 1, hn =>
    if (n + 1) % 8 = 0 then k3_pay2 (iblk3 V c 0 ⟨n + 1, hn⟩) (iblk3 V c 1 ⟨n + 1, hn⟩) k3_pay1
    else k3_pay2 (iblk3 V c 0 ⟨n + 1, hn⟩) (iblk3 V c 1 ⟨n + 1, hn⟩) (sc3 c n (Nat.lt_of_succ_lt hn))

theorem sc3_first (c : Dev nD) (t : Fin cfg3.N) (h0 : t.val % 8 = 0) :
    sc3 V c t.val t.isLt = k3_pay2 (iblk3 V c 0 t) (iblk3 V c 1 t) k3_pay1 := by
  obtain ⟨n, hn⟩ := t
  cases n with
  | zero => rfl
  | succ n => exact (if_pos h0).trans rfl

theorem sc3_next (c : Dev nD) (t : Fin cfg3.N) (h0 : ¬t.val % 8 = 0) :
    sc3 V c t.val t.isLt = k3_pay2 (iblk3 V c 0 t) (iblk3 V c 1 t) (sc3 V c (t.val - 1) (Nat.lt_of_le_of_lt (Nat.sub_le _ _) t.isLt)) := by
  obtain ⟨n, hn⟩ := t
  cases n with
  | zero => exact absurd (Nat.zero_mod _) h0
  | succ n => exact (if_neg h0).trans rfl

-- The running sum advances by the body's step from whatever the point before left.
theorem sc3_step (c : Dev nD) (t : Fin cfg3.N) (xs : Vec F S256x2050 .f32)
    (hxs : t.val ≠ 0 → xs = sc3 V c (t.val - 1) (Nat.lt_of_le_of_lt (Nat.sub_le _ _) t.isLt)) :
    acc3 (grid3.coords t) (iblk3 V c 0 t) (iblk3 V c 1 t) xs = sc3 V c t.val t.isLt := by
  unfold acc3
  by_cases h0 : t.val % 8 = 0
  · rw [if_pos ((hcond3_0 t).mpr h0), sc3_first V c t h0]
  · rw [if_neg fun h => h0 ((hcond3_0 t).mp h), sc3_next V c t h0, hxs fun e => h0 (by rw [e])]

-- The region's invariant with the scratch held as `P`.
abbrev inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = inv3 c iprop(∃ d, owns (c : Thread nD τ) scM3 fullShare d) := by
  unfold Pipeline.ΦA; rw [scopedRest3_split]; simp only [scM3, owns_whole]; try rfl

def PhiS3 (c : Dev nD) : (n : ℕ) → n ≤ cfg3.N → sProp 𝕄
  | 0, _ => Pipeline.ΦA spec3 c
  | n + 1, hn => inv3 c (owns (c : Thread nD τ) scM3 fullShare (sc3 V c n hn))

theorem inv3_mono (c : Dev nD) {P Q : sProp 𝕄} (h : P ⊢ Q) : inv3 c P ⊢ inv3 c Q := sep_mono_left (sep_mono_left h)

-- Before any point the invariant holds the scratch at some contents: after a first point, at the running sum so far.
theorem PhiS3_open (c : Dev nD) (n : ℕ) (h : n ≤ cfg3.N) :
    PhiS3 V c n h ⊢ inv3 c iprop(∃ xs, ⌜∀ hn : n ≠ 0, xs = sc3 V c (n - 1) (by omega)⌝ ∗ owns (c : Thread nD τ) scM3 fullShare xs) := by
  cases n with
  | zero =>
    rw [show PhiS3 V c 0 h = Pipeline.ΦA spec3 c from rfl, PhiA3_eq]
    refine inv3_mono c ?_
    iintro ⟨%d, HS⟩; iexists d; isplitr; · ipureintro; exact fun hn => absurd rfl hn
    iexact HS
  | succ n =>
    refine inv3_mono c ?_
    iintro HS; iexists sc3 V c n h; isplitr; · ipureintro; exact fun _ => rfl
    iexact HS

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (iblk3 V c 2 t) (sc3 V c t.val t.isLt)
    | ⟨6, _⟩ => k3_pay4 (iblk3 V c 2 t) (sc3 V c t.val t.isLt) (iblk3 V c 3 t) (iblk3 V c 4 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = k3_pay3 (iblk3 V c 2 t) (sc3 V c t.val t.isLt) := by dsimp only [dat3]
theorem after3_6 (c : Dev nD) (t : Fin cfg3.N) : (dat3 V c).after 6 t = k3_pay4 (iblk3 V c 2 t) (sc3 V c t.val t.isLt) (iblk3 V c 3 t) (iblk3 V c 4 t) := by dsimp only [dat3]

-- The body finds every input block in place and leaves it so.
theorem in3 (c : Dev nD) (t : Fin cfg3.N) :
    ((dat3 V c).after 0 t = iblk3 V c 0 t ∧ ∀ d, (dat3 V c).before 0 t d = iblk3 V c 0 t)
    ∧ ((dat3 V c).after 1 t = iblk3 V c 1 t ∧ ∀ d, (dat3 V c).before 1 t d = iblk3 V c 1 t)
    ∧ ((dat3 V c).after 2 t = iblk3 V c 2 t ∧ ∀ d, (dat3 V c).before 2 t d = iblk3 V c 2 t)
    ∧ ((dat3 V c).after 3 t = iblk3 V c 3 t ∧ ∀ d, (dat3 V c).before 3 t d = iblk3 V c 3 t)
    ∧ ((dat3 V c).after 4 t = iblk3 V c 4 t ∧ ∀ d, (dat3 V c).before 4 t d = iblk3 V c 4 t) := by
  refine ⟨?_, ?_, ?_, ?_, ?_⟩ <;> exact ⟨by dsimp only [dat3], fun d =>
    ((dat3 V c).before_in_eq_fetched _ rfl (fun _ => rfl) (fun _ _ _ => rfl) (fun t => by dsimp only [dat3, Dat.blockOf, iblk3]; try rfl) t d).trans
      (by dsimp only [dat3, Dat.fetched, Dat.blockOf, iblk3]; try rfl)⟩

abbrev pre3 (c : Dev nD) (t : Fin cfg3.N) (w : Fin cfg3.W) : sProp 𝕄 :=
  iprop(∃ d, owns (c : Thread nD τ) ((cfg3.win w).stage (cfg3.slots t w)) fullShare ((dat3 V c).before w t d))

-- The body at any point: the invariant hands it the scratch and takes it back one step on; the inputs stay, the outputs follow k.
theorem sound_body3 (c : Dev nD) (t : Fin cfg3.N) :
    iprop((dat3 V c).Φ t.castSucc ∗ (dat3 V c).owesAt () t.castSucc
        ∗ pre3 V c t 0 ∗ pre3 V c t 1 ∗ pre3 V c t 2 ∗ pre3 V c t 3 ∗ pre3 V c t 4 ∗ pre3 V c t 5 ∗ pre3 V c t 6)
      ⊢ wp frame (wpE (defs₀ (F := F)) Variants.none c none) Set.univ (bodyAt3 t) fun _ =>
        iprop((dat3 V c).Φ t.succ ∗ (dat3 V c).owesAt () t.succ
          ∗ (dat3 V c).leavesExact 0 t ∗ (dat3 V c).leavesExact 1 t ∗ (dat3 V c).leavesExact 2 t ∗ (dat3 V c).leavesExact 3 t
          ∗ (dat3 V c).leavesExact 4 t ∗ (dat3 V c).leavesExact 5 t ∗ (dat3 V c).leavesExact 6 t) := by
  unfold pre3 bodyAt3
  rw [show (dat3 V c).owesAt () t.succ = (dat3 V c).owesAt () t.castSucc from rfl,
    show (dat3 V c).Φ t.succ = inv3 c (owns (c : Thread nD τ) scM3 fullShare (sc3 V c t.val t.isLt)) from rfl,
    show (dat3 V c).Φ t.castSucc = PhiS3 V c t.val (Nat.le_of_lt t.isLt) from rfl,
    leavesExact_live _ 0 t (live3 0 t (.inl (by decide))), leavesExact_live _ 1 t (live3 1 t (.inl (by decide))),
    leavesExact_live _ 2 t (live3 2 t (.inl (by decide))), leavesExact_live _ 3 t (live3 3 t (.inl (by decide))),
    leavesExact_live _ 4 t (live3 4 t (.inl (by decide)))]
  simp only [in3 V c t]
  unfold inv3
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := PhiS3_open V c t.val (Nat.le_of_lt t.isLt) $$ HΦ
  icases HΦ' with ⟨⟨⟨%xs, %hxs, HS⟩, HR⟩, Hg⟩
  iapply (sound3 c (grid3.coords t) (fun h0 h1 => by have := (hcond3_0 t).mp h0; have := (hcond3_1 t).mp h1; omega)
    _ _ _ _ _ _ _ _ _ _ _ _ _ _ _ _ (iblk3 V c 0 t) (iblk3 V c 1 t) (iblk3 V c 2 t) (iblk3 V c 3 t) (iblk3 V c 4 t) _ _ xs Set.univ _)
  rw [sc3_step V c t xs hxs]
  iframe H0 H1 H2 H3 H4 H5 H6 HS
  iintro ⟨H0, H1, H2, H3, H4, H5, H6, HS⟩
  iframe HS HR Hg Ho H0 H1 H2 H3 H4
  isplitl [H5]
  · iapply leavesExact_ite (dat3 V c) 5 t (cond3_1 (grid3.coords t)) (fun h => live3 5 t (.inr h)) (idle3 5 t (by decide)) d5 _ (after3_5 V c t) $$ H5
  · iapply leavesExact_ite (dat3 V c) 6 t (cond3_1 (grid3.coords t)) (fun h => live3 6 t (.inr h)) (idle3 6 t (by decide)) d6 _ (after3_6 V c t) $$ H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiA3_eq]
  refine (PhiS3_open V c _ _).trans (inv3_mono c ?_)
  iintro ⟨%xs, -, HS⟩; iexists xs; iexact HS

end

end Cert.KernelIdeal.Hand

end
-- ==== Proof.KIRun.lean ====
import proofs.«138652_j14508399526340_1_alg».proof.Proof.KIR0
import proofs.«138652_j14508399526340_1_alg».proof.Proof.KIR1Dat
import proofs.«138652_j14508399526340_1_alg».proof.Proof.KIR2Dat
import proofs.«138652_j14508399526340_1_alg».proof.Proof.KIR3Dat
import proofs.«138652_j14508399526340_1_alg».proof.Proof.Gen.KernelIdeal.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

/-- An array that is no output of a region, and a buffer that is no array of it, leave the region as they entered. -/
theorem keep {cfg : Cfg sig Λ₀} {c : Dev nD} (d : Dat τ (Elt F) Unit ℕ (UR sig nD τ) ℕ cfg c) (V : Valuation τ sig (Elt F))
    (hA : ∀ w, d.A w = V (Proc.devRef .tc (Pipeline.arrRef cfg.spec w))) (hinj : Function.Injective (Pipeline.arrRef cfg.spec))
    (b : Ref sig .tc) (hout : ∀ w, (cfg.win w).isOut = true → Pipeline.arrRef cfg.spec w ≠ b) :
    Pipeline.withArrays cfg.spec c V (fun w => d.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans
      ((d.arrAt_in w (Bool.eq_false_iff.mpr fun hw => hout w hw rfl) _).trans (hA w))
  · exact Pipeline.withArrays_of_ne _ c _ _ b fun w e => h ⟨w, e⟩

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_keep (c : Dev nD) (b : Ref sig .tc)
    (hout : ∀ w : Fin cfg0.W, (cfg0.win w).isOut = true → Pipeline.arrRef spec0 w ≠ b) :
    W2 m c (Proc.devRef .tc b) = W1 m c (Proc.devRef .tc b) :=
  keep (dat0 (V1 m) c) (W1 m c) (A_eq0 (V1 m) c) launch0.win.arr_inj b hout

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
abbrev V4 : (c : Dev nD) → (b : Ref sig .tc) → Buf (Elt F) ((c : Thread nD τ).loc b) := fun c b => W4 m c b
theorem W4_keep (c : Dev nD) (b : Ref sig .tc)
    (hout : ∀ w : Fin cfg1.W, (cfg1.win w).isOut = true → Pipeline.arrRef spec1 w ≠ b) :
    W4 m c (Proc.devRef .tc b) = W3 m c (Proc.devRef .tc b) :=
  keep (dat1 (V3 m) c) (W3 m c) (A_eq1 (V3 m) c) launch1.win.arr_inj b hout

def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N :=
  Pipeline.withArrays_arr spec2 launch2.win.arr_inj c _ _ w
abbrev V5 : (c : Dev nD) → (b : Ref sig .tc) → Buf (Elt F) ((c : Thread nD τ).loc b) := fun c b => W5 m c b
theorem W5_keep (c : Dev nD) (b : Ref sig .tc)
    (hout : ∀ w : Fin cfg2.W, (cfg2.win w).isOut = true → Pipeline.arrRef spec2 w ≠ b) :
    W5 m c (Proc.devRef .tc b) = W4 m c (Proc.devRef .tc b) :=
  keep (dat2 (V4 m) c) (W4 m c) (A_eq2 (V4 m) c) launch2.win.arr_inj b hout

def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N :=
  Pipeline.withArrays_arr spec3 launch3.win.arr_inj c _ _ w
theorem W6_keep (c : Dev nD) (b : Ref sig .tc)
    (hout : ∀ w : Fin cfg3.W, (cfg3.win w).isOut = true → Pipeline.arrRef spec3 w ≠ b) :
    W6 m c (Proc.devRef .tc b) = W5 m c (Proc.devRef .tc b) :=
  keep (dat3 (V5 m) c) (W5 m c) (A_eq3 (V5 m) c) launch3.win.arr_inj b hout

abbrev W7 : Dev nD → Valuation τ sig (Elt F) := fun c => StableHlo.after hostOps4 (W6 m c)

def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V5 m) c
abbrev 𝒱₀ : Variants := Variants.none
abbrev L : GSem nD τ sig → Finset Unit := fun _ => ∅
abbrev lv : GSem nD τ sig → Unit → ℕ := fun _ _ => 0
/-- What rides beside the buffers through every step. -/
abbrev R (c : Dev nD) : sProp 𝕄 := iprop((∃ r, prngReg c r) ∗ ∃ W, owes (c : Thread nD τ) (0 : CellTallies nD τ sig Unit) W)
/-- The state between two items of @main: the buffers at `W`, beside `R`. -/
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What region `p` entered at `W` leaves: its arrays at their final contents, every other buffer unchanged. -/
abbrev exitW (p : Fin 4) (W : Dev nD → Valuation τ sig (Elt F)) (c : Dev nD) : Valuation τ sig (Elt F) :=
  Pipeline.withArrays (cfgs p).spec c (W c) fun w => (pdats m p c).arrAt w (cfgs p).N

/-- Region `p` as a step from `T W` to `T (exitW p W)`. -/
def reg (p : Fin 4) (lf : Pipeline.LaunchFacts (nD := nD) (τ := τ) cfgs p) (W : Dev nD → Valuation τ sig (Elt F))
    (hA : ∀ c w, (pdats m p c).A w = W c (Proc.devRef .tc (Pipeline.arrRef (cfgs p).spec w)))
    (hq : ∀ c w, (pdats m p c).q w = fullShare) (hz : ∀ c t, (pdats m p c).owed t = 0)
    (hr : ∀ c, (pdats m p c).recorded 0 = Set.univ)
    (hb : ∀ c, BodyObligation (pdats m p c) (defs₀ (F := F)) 𝒱₀ () Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre := T W
  post := T (exitW m p W)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    have hs := Pipeline.arrays_of_unscopedBufs (p := p) (pcfgs (F := F)) adm (pdats m) lf.win lf.arr_whole c
      ((pdats m p c).share_full (hq c)) (fun b => W c b) (hA c)
    rw [Pipeline.unscopedBufs_held] at hs
    unfold Pipeline.prefHeld Pipeline.Dat.owesAt Pipeline.owesWithin
    rw [Pipeline.ownSems0_none, hz c, show (Finset.univ : Finset (Fin 0)) = ∅ from rfl, BI.bigSep_empty]
    iintro ⟨⟨Hub, Hp, %O, HO⟩, -⟩
    icases hs $$ Hub with ⟨Ha, Hr⟩
    imodintro
    iframe Ha Hp Hr
    isplitr; · iempintro
    iexists O; iframe HO; ipureintro; exact fun _ _ => Or.inl (hr c ▸ trivial)
  hin c := .trans (by unfold Pipeline.ΦA; iintro ⟨Hp, -, Hr⟩; iframe) (hin c)
  hout c := (hout c).trans (by rw [Pipeline.ownSems0_none]; unfold Pipeline.ΦA; iintro ⟨Hr, Hp⟩; iframe; iempintro)
  hexit c := by
    have hj := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b)
      (fun b => exitW m p W c b) ((pdats m p c).arrAt · (cfgs p).N)
      (fun w => (Pipeline.withArrays_arr (cfgs p).spec lf.win.arr_inj c (W c) (fun w => (pdats m p c).arrAt w (cfgs p).N) w).symm)
      (fun b hb => Pipeline.withArrays_of_ne (cfgs p).spec c (W c) (fun w => (pdats m p c).arrAt w (cfgs p).N) b fun w e => hb (Finset.mem_image.mpr ⟨w, Finset.mem_univ _, e⟩))
    rw [Pipeline.unscopedBufs_held] at hj
    unfold Pipeline.Dat.owesAt Pipeline.owesWithin; rw [hz c]
    iintro ⟨Ha, ⟨%O, -, HO⟩, HY, Hr⟩
    imodintro
    isplitl [Ha Hr]; · iapply hj; iframe
    isplitl [HY]; · iexact HY
    iexists O; iexact HO

abbrev segs : List (Pipeline.Seg (pcfgs (F := F)) adm (pdats m) () defs₀ 𝒱₀ L lv) :=
  [ .host (hseg hostOps0 hostOps0_sub hostOps0_fresh (W0 m)),
    .region (reg m 0 launch0 (W1 m) (A_eq0 (V1 m)) (fun _ _ => rfl) (fun _ _ => rfl) (fun _ => rfl) (body_obligation0 (V1 m)) (hin0 (V1 m)) (hout0 (V1 m))),
    .host (hseg hostOps1 hostOps1_sub hostOps1_fresh (W2 m)),
    .region (reg m 1 launch1 (W3 m) (A_eq1 (V3 m)) (fun _ _ => rfl) (fun _ _ => rfl) (fun _ => rfl) (body_obligation1 (V3 m)) (hin1 (V3 m)) (hout1 (V3 m))),
    .region (reg m 2 launch2 (W4 m) (A_eq2 (V4 m)) (fun _ _ => rfl) (fun _ _ => rfl) (fun _ => rfl) (body_obligation2 (V4 m)) (hin2 (V4 m)) (hout2 (V4 m))),
    .region (reg m 3 launch3 (W5 m) (A_eq3 (V5 m)) (fun _ _ => rfl) (fun _ _ => rfl) (fun _ => rfl) (body_obligation3 (V5 m)) (hin3 (V5 m)) (hout3 (V5 m))),
    .host (hseg hostOps4 hostOps4_sub hostOps4_fresh (W6 m)) ]

theorem main_run (c : Dev nD) : main (F := F) c = Pipeline.Seg.run (segs m) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Pipeline.θ_run_regions_kit (pcfgs (F := F)) adm (pdats m) () cellOf_inj emb₁ defs₀ 𝒱₀ L lv m ρ main (segs m)
    (fun c Q => by rw [main_run m c])
    (show ([0, 1, 2, 3] : List (Fin 4)).Nodup by decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show (ownU _ : sProp 𝕄) ⊢ BI.own (emb₁ _) from .rfl); iexact Hu
      iempintro)
    (T₀ := T (W0 m))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => ((c : Thread nD τ).1, b)) (W7 m c) s')
      iframe)
    (hQ := fun _ h => h)

theorem W1_of (c : Dev nD) (b : Ref sig .tc) (h : b ∉ hostOps0_W) : W1 m c (Proc.devRef .tc b) = W0 m c (Proc.devRef .tc b) :=
  StableHlo.after_of_writes_sub hostOps0 _ hostOps0_writes h
theorem W3_of (c : Dev nD) (b : Ref sig .tc) (h : b ∉ hostOps1_W) : W3 m c (Proc.devRef .tc b) = W2 m c (Proc.devRef .tc b) :=
  StableHlo.after_of_writes_sub hostOps1 _ hostOps1_writes h
theorem W7_of (c : Dev nD) (b : Ref sig .tc) (h : b ∉ hostOps4_W) : W7 m c (Proc.devRef .tc b) = W6 m c (Proc.devRef .tc b) :=
  StableHlo.after_of_writes_sub hostOps4 _ hostOps4_writes h

/-- The seven steps composed: a buffer none of them changes ends at its launch contents. -/
theorem W7_launch (c : Dev nD) (b : Ref sig .tc) (h0 : b ∉ hostOps0_W) (h1 : b ∉ hostOps1_W) (h4 : b ∉ hostOps4_W)
    (o0 : ∀ w : Fin cfg0.W, (cfg0.win w).isOut = true → Pipeline.arrRef spec0 w ≠ b)
    (o1 : ∀ w : Fin cfg1.W, (cfg1.win w).isOut = true → Pipeline.arrRef spec1 w ≠ b)
    (o2 : ∀ w : Fin cfg2.W, (cfg2.win w).isOut = true → Pipeline.arrRef spec2 w ≠ b)
    (o3 : ∀ w : Fin cfg3.W, (cfg3.win w).isOut = true → Pipeline.arrRef spec3 w ≠ b) :
    W7 m c (Proc.devRef .tc b) = m ((c : Thread nD τ).loc b) :=
  (W7_of m c b h4).trans <| (W6_keep m c b o3).trans <| (W5_keep m c b o2).trans <| (W4_keep m c b o1).trans <|
    (W3_of m c b h1).trans <| (W2_keep m c b o0).trans <| (W1_of m c b h0).trans rfl

/-- The same, read off a final memory that agrees with `W7`. -/
theorem kept {s : MemSt nD τ sig (Elt F)} {c : Dev nD}
    (h : ∀ b ∈ Pipeline.ucRefs τ sig, s.mem ((c : Thread nD τ).1, b) = W7 m c b) (b : Ref sig .tc)
    (hb : ¬ (Proc.devRef .tc b : DevRef τ sig).isScoped ∧ b ∉ hostOps0_W ∧ b ∉ hostOps1_W ∧ b ∉ hostOps4_W
      ∧ (∀ w : Fin cfg0.W, (cfg0.win w).isOut = true → Pipeline.arrRef spec0 w ≠ b)
      ∧ (∀ w : Fin cfg1.W, (cfg1.win w).isOut = true → Pipeline.arrRef spec1 w ≠ b)
      ∧ (∀ w : Fin cfg2.W, (cfg2.win w).isOut = true → Pipeline.arrRef spec2 w ≠ b)
      ∧ ∀ w : Fin cfg3.W, (cfg3.win w).isOut = true → Pipeline.arrRef spec3 w ≠ b) :
    s.mem ((c.tc : Thread nD τ).loc b) = m ((c.tc : Thread nD τ).loc b) :=
  let ⟨hu, h0, h1, h4, o0, o1, o2, o3⟩ := hb
  (h _ (mem_uc b hu)).trans (W7_launch m c b h0 h1 h4 o0 o1 o2 o3)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_all m ρ).mono fun _ h c => have k := kept m (h c)
    ⟨k _ (by decide), k _ (by decide), k _ (by decide), k _ (by decide), k _ (by decide), k _ (by decide), k _ (by decide),
      k _ (by decide), k _ (by decide), k _ (by decide), k _ (by decide)⟩

end Cert.KernelIdeal.Hand

end
-- ==== Proof.KFrame.lean ====
import proofs.«138652_j14508399526340_1_alg».proof.Defs
import proofs.«138652_j14508399526340_1_alg».proof.Proof.Gen.Kernel
import proofs.«138652_j14508399526340_1_alg».proof.Proof.Gen.KernelIdeal
import proofs.«138652_j14508399526340_1_alg».proof.Proof.Gen.Pre_finite_inputs
import proofs.«138652_j14508399526340_1_alg».proof.Proof.KIRun

noncomputable section

namespace Cert.Kernel.Hand

open Idealize.ShloMosaic Idealize.ShloMosaic.TcCoe Idealize.SL.Sem

set_option maxHeartbeats 1600000 in
-- The idealization rewrote nothing: the two printed programs are one text, so their body tables agree label by label.
theorem defs₀_eq : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (t, s) => rfl
  | 1, (t, s) => rfl
  | 2, (t, s) => rfl
  | 3, (t, s) => rfl
  | ⟨_ + 4, h⟩, _ => exact absurd h (Nat.not_lt.2 (Nat.le_add_left _ _))

set_option maxHeartbeats 600000 in
theorem defs_eq : Cert.Kernel.defs (F := Bits) = Cert.KernelIdeal.defs (F := Bits) := by
  unfold Cert.Kernel.defs Cert.KernelIdeal.defs
  rw [defs₀_eq]
  rfl

set_option maxHeartbeats 800000 in
-- So the kernel's frame is the idealized kernel's, whose proof does not depend on the float instance.
theorem frame : Cert.frame_Kernel := fun m ρ _ => by
  have h := Cert.KernelIdeal.Hand.frame_all (F := Bits) m ρ
  rw [← defs_eq] at h
  exact h

end Cert.Kernel.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

-- What both programs compute, entry by entry, over the extended reals.
abbrev Mat (r c : ℕ) : Type := (⟨2, ![r, c]⟩ : Shape).Idx → EReal

abbrev Sca : Type := (⟨0, ![]⟩ : Shape).Idx → EReal

abbrev c07 : EReal := Ideal.ofBits .f32 0x3F333333#32
abbrev c03 : EReal := Ideal.ofBits .f32 0x3E99999A#32
abbrev cm03 : EReal := Ideal.ofBits .f32 0xBE99999A#32
abbrev c4096 : EReal := Ideal.ofBits .f32 0x45800000#32

def mk {r c : ℕ} (f : Fin r → Fin c → EReal) : Mat r c := fun j => f (j 0) (j 1)

@[simp] theorem mk_ix2 {r c : ℕ} (f : Fin r → Fin c → EReal) (p : Fin r) (q : Fin c) : mk f (ix2 p q) = f p q := rfl

def modW {r c : ℕ} (a h : Mat r c) (w : EReal) : Mat r c := mk fun p q => a (ix2 p q) + w * h (ix2 p q)

def mm {M K N : ℕ} (l : Mat M K) (r : Mat K N) : Mat M N := mk fun p q => ∑ k : Fin K, l (ix2 p k) * r (ix2 k q)

def relu {r c : ℕ} (x : Mat r c) : Mat r c := mk fun p q => max (x (ix2 p q)) 0

def mmT {B M N : ℕ} (pre : Mat B M) (post : Mat B N) : Mat M N := mk fun i j => ∑ b : Fin B, pre (ix2 b i) * post (ix2 b j)

def eNew {M N : ℕ} (e acc : Mat M N) : Mat M N := mk fun i j => c07 * e (ix2 i j) + c03 * acc (ix2 i j)

def hebNew {M N : ℕ} (heb en : Mat M N) (d : EReal) : Mat M N := mk fun i j => min c03 (max cm03 (heb (ix2 i j) + d * en (ix2 i j)))

def colMeanTanh {B N : ℕ} (y : Mat B N) (q : Fin N) : EReal := Ideal.div (∑ p : Fin B, Ideal.tanh (y (ix2 p q))) c4096

def takeCols {B N : ℕ} (n : ℕ) (hn : n ≤ N) (y : Mat B N) : Mat B n := mk fun p q => y (ix2 p ⟨q.val, lt_of_lt_of_le q.isLt hn⟩)

def sca (v : EReal) : Sca := fun _ => v

section
variable (x : Mat 4096 2048) (a1 a2 : Mat 2048 2048) (a3 : Mat 2048 2050) (e1 e2 : Mat 2048 2048) (e3 : Mat 2048 2050)
  (b1 b2 : Mat 2048 2048) (b3 : Mat 2048 2050) (w : Sca)

def h0x : Mat 4096 2048 := mm x (modW a1 b1 (w ix0))
def h10 : Mat 4096 2048 := mm (relu (h0x x a1 b1 w)) (modW a2 b2 (w ix0))
def y1 : Mat 4096 2050 := mm (relu (h10 x a1 a2 b1 b2 w)) (modW a3 b3 (w ix0))
def yOut : Mat 4096 2048 := takeCols 2048 (by norm_num) (y1 x a1 a2 a3 b1 b2 b3 w)
def wNew : EReal := colMeanTanh (y1 x a1 a2 a3 b1 b2 b3 w) (⟨2048, by norm_num⟩ : Fin 2050)
def dopa : EReal := colMeanTanh (y1 x a1 a2 a3 b1 b2 b3 w) (⟨2047, by norm_num⟩ : Fin 2050)
def e1n : Mat 2048 2048 := eNew e1 (mmT x (h0x x a1 b1 w))
def e2n : Mat 2048 2048 := eNew e2 (mmT (relu (h0x x a1 b1 w)) (h10 x a1 a2 b1 b2 w))
def e3n : Mat 2048 2050 := eNew e3 (mmT (relu (h10 x a1 a2 b1 b2 w)) (y1 x a1 a2 a3 b1 b2 b3 w))
def heb1n : Mat 2048 2048 := hebNew b1 (e1n x a1 e1 b1 w) (dopa x a1 a2 a3 b1 b2 b3 w)
def heb2n : Mat 2048 2048 := hebNew b2 (e2n x a1 a2 e2 b1 b2 w) (dopa x a1 a2 a3 b1 b2 b3 w)
def heb3n : Mat 2048 2050 := hebNew b3 (e3n x a1 a2 a3 e3 b1 b2 b3 w) (dopa x a1 a2 a3 b1 b2 b3 w)

end

end Cert.Spec

end
-- ==== Proof.LibRows.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section
namespace Cert.LibRows
open Idealize.ShloMosaic Idealize.ShloMosaic.ValueIdx

-- A matrix product read at an entry is the sum over the contracted axis.
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => exact contrEquiv1_symm_val (DotDims.plain M K N) K rfl rfl k

theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => exact contrEquiv1_symm_val (DotDims.plain M K N) K rfl rfl k
  | ⟨1, _⟩ => rfl

theorem matmul_plain_apply (M K N : ℕ) {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  refine (Ideal.matmul_constant_zero_apply (DotDims.plain M K N) prec l r (ix2 p q)).trans ?_
  rw [← Equiv.sum_comp (contrEquiv1 (DotDims.plain M K N) K rfl rfl).symm]
  refine Finset.sum_congr rfl fun k _ => ?_
  rw [lhsIdx_plain, rhsIdx_plain]

variable {α : Type}

theorem shapeCast_a_a1_apply {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

theorem bcastScalar_apply {t : Shape} (h : (⟨0, ![]⟩ : Shape).BroadcastsInDim t ![]) (v : (⟨0, ![]⟩ : Shape).Idx → α) (j : t.Idx) :
    broadcastInDim t ![] h v j = v ix0 := by
  have h0 : 0 < (⟨0, ![]⟩ : Shape).numel := by decide
  rw [StableHlo.Predicate.bcast_scalar h h0 v j]
  exact congrArg v (eq_ix0 _)

end Cert.LibRows
end
-- ==== Proof.KIV0Pay.lean ====
import proofs.«138652_j14508399526340_1_alg».proof.Proof.Gen.KernelIdeal.Skeleton
import proofs.«138652_j14508399526340_1_alg».proof.Proof.Spec
import proofs.«138652_j14508399526340_1_alg».proof.Proof.LibRows
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

section
variable (x : Vec Ideal S128x2048 .f32) (w1 : Vec Ideal S2048x2048 .bf16) (w2 : Vec Ideal S2048x2048 .bf16)
  (w3 : Vec Ideal S2048x2050 .bf16)

theorem k0_pay7_apply (p : Fin 128) (q : Fin 2048) :
    k0_pay7 (F := Ideal) x w1 (ix2 p q) = ∑ k : Fin 2048, x (ix2 p k) * w1 (ix2 k q) := by
  unfold k0_pay7
  refine (Cert.LibRows.matmul_plain_apply 128 2048 2048 none _ _ p q).trans ?_
  refine Finset.sum_congr rfl fun k _ => ?_
  rw [shapeCast_self]
  rfl

theorem k0_pay8_apply (p : Fin 128) (q : Fin 2048) :
    k0_pay8 (F := Ideal) x w1 w2 (ix2 p q) = ∑ k : Fin 2048, max (k0_pay7 (F := Ideal) x w1 (ix2 p k)) 0 * w2 (ix2 k q) := by
  unfold k0_pay8
  refine (Cert.LibRows.matmul_plain_apply 128 2048 2048 none _ _ p q).trans ?_
  refine Finset.sum_congr rfl fun k _ => ?_
  rw [shapeCast_self]
  show max (k0_pay7 (F := Ideal) x w1 (ix2 p k)) (Ideal.ofBits .f32 0x00000000#32) * w2 (ix2 k q) = _
  rw [Ideal.ofBits_zero_f32]

theorem k0_pay9_apply (p : Fin 128) (q : Fin 2050) :
    k0_pay9 (F := Ideal) x w1 w2 w3 (ix2 p q) = ∑ k : Fin 2048, max (k0_pay8 (F := Ideal) x w1 w2 (ix2 p k)) 0 * w3 (ix2 k q) := by
  unfold k0_pay9
  refine (Cert.LibRows.matmul_plain_apply 128 2048 2050 none _ _ p q).trans ?_
  refine Finset.sum_congr rfl fun k _ => ?_
  rw [shapeCast_self]
  show max (k0_pay8 (F := Ideal) x w1 w2 (ix2 p k)) (Ideal.ofBits .f32 0x00000000#32) * w3 (ix2 k q) = _
  rw [Ideal.ofBits_zero_f32]

end

end Cert.KernelIdeal.Hand

end
-- ==== Proof.KIV0.lean ====
import proofs.«138652_j14508399526340_1_alg».proof.Proof.KIR0
import proofs.«138652_j14508399526340_1_alg».proof.Proof.KIV0Pay
import proofs.«138652_j14508399526340_1_alg».proof.Proof.Spec
import Idealize.ShloMosaic.PureOps.Ideal
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.TcCoe Idealize.SL.Sem
open Idealize.ShloMosaic.Pipeline (Dat)

namespace Mat0

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

abbrev X0 (c : Dev nD) : Spec.Mat 4096 2048 := V c main_arg0
abbrev W1 (c : Dev nD) : Spec.Mat 2048 2048 := V c main_v3
abbrev W2 (c : Dev nD) : Spec.Mat 2048 2048 := V c main_v7
abbrev W3 (c : Dev nD) : Spec.Mat 2048 2050 := V c main_v11
abbrev Y0 (c : Dev nD) : Spec.Mat 4096 2048 := Spec.mm (X0 V c) (W1 V c)
abbrev Y1h (c : Dev nD) : Spec.Mat 4096 2048 := Spec.mm (Spec.relu (Y0 V c)) (W2 V c)
abbrev Y1 (c : Dev nD) : Spec.Mat 4096 2050 := Spec.mm (Spec.relu (Y1h V c)) (W3 V c)

abbrev rowOf (t : Fin cfg0.N) (p : Fin 128) : Fin 4096 :=
  ⟨128 * t.val + p.val, by have := t.isLt; have := p.isLt; have : cfg0.N = 32 := N_0; omega⟩

theorem iblk0_0_apply (c : Dev nD) (t : Fin cfg0.N) (p : Fin 128) (k : Fin 2048) :
    iblk0 V c 0 t (ix2 p k) = X0 V c (ix2 (rowOf t p) k) := by
  obtain ⟨e0, e1, -⟩ := idx_facts0 t
  show (X0 V c) (((cfg0.win 0).blk t).view.emb (ix2 p k)) = _
  exact congrArg (X0 V c) (Shape.idx_ext₂ (by show win0_0.index t (0 : Fin 2) * 128 + 1 * p.val = 128 * t.val + p.val; omega) (by show win0_0.index t (1 : Fin 2) * 2048 + 1 * k.val = k.val; omega))

theorem iblk0_1_apply (c : Dev nD) (t : Fin cfg0.N) (k : Fin 2048) (q : Fin 2048) :
    iblk0 V c 1 t (ix2 k q) = W1 V c (ix2 k q) := by
  obtain ⟨-, -, e0, e1, -⟩ := idx_facts0 t
  show (W1 V c) (((cfg0.win 1).blk t).view.emb (ix2 k q)) = _
  exact congrArg (W1 V c) (Shape.idx_ext₂ (by show win0_1.index t (0 : Fin 2) * 2048 + 1 * k.val = k.val; omega) (by show win0_1.index t (1 : Fin 2) * 2048 + 1 * q.val = q.val; omega))

theorem iblk0_2_apply (c : Dev nD) (t : Fin cfg0.N) (k : Fin 2048) (q : Fin 2048) :
    iblk0 V c 2 t (ix2 k q) = W2 V c (ix2 k q) := by
  obtain ⟨-, -, -, -, e0, e1, -⟩ := idx_facts0 t
  show (W2 V c) (((cfg0.win 2).blk t).view.emb (ix2 k q)) = _
  exact congrArg (W2 V c) (Shape.idx_ext₂ (by show win0_2.index t (0 : Fin 2) * 2048 + 1 * k.val = k.val; omega) (by show win0_2.index t (1 : Fin 2) * 2048 + 1 * q.val = q.val; omega))

theorem iblk0_3_apply (c : Dev nD) (t : Fin cfg0.N) (k : Fin 2048) (q : Fin 2050) :
    iblk0 V c 3 t (ix2 k q) = W3 V c (ix2 k q) := by
  obtain ⟨-, -, -, -, -, -, e0, e1, -⟩ := idx_facts0 t
  show (W3 V c) (((cfg0.win 3).blk t).view.emb (ix2 k q)) = _
  exact congrArg (W3 V c) (Shape.idx_ext₂ (by show win0_3.index t (0 : Fin 2) * 2048 + 1 * k.val = k.val; omega) (by show win0_3.index t (1 : Fin 2) * 2050 + 1 * q.val = q.val; omega))

theorem pay7_blk (c : Dev nD) (t : Fin cfg0.N) (p : Fin 128) (q : Fin 2048) :
    k0_pay7 (F := Ideal) (iblk0 V c 0 t) (iblk0 V c 1 t) (ix2 p q) = Y0 V c (ix2 (rowOf t p) q) := by
  rw [k0_pay7_apply]
  show _ = ∑ k : Fin 2048, X0 V c (ix2 (rowOf t p) k) * W1 V c (ix2 k q)
  exact Finset.sum_congr rfl fun k _ => by rw [iblk0_0_apply, iblk0_1_apply]

theorem pay8_blk (c : Dev nD) (t : Fin cfg0.N) (p : Fin 128) (q : Fin 2048) :
    k0_pay8 (F := Ideal) (iblk0 V c 0 t) (iblk0 V c 1 t) (iblk0 V c 2 t) (ix2 p q) = Y1h V c (ix2 (rowOf t p) q) := by
  rw [k0_pay8_apply]
  show _ = ∑ k : Fin 2048, max (Y0 V c (ix2 (rowOf t p) k)) 0 * W2 V c (ix2 k q)
  exact Finset.sum_congr rfl fun k _ => by rw [pay7_blk, iblk0_2_apply]

theorem pay9_rows (c : Dev nD) (t : Fin cfg0.N) (p : Fin 128) (q : Fin 2050) :
    k0_pay9 (F := Ideal) (iblk0 V c 0 t) (iblk0 V c 1 t) (iblk0 V c 2 t) (iblk0 V c 3 t) (ix2 p q) = Y1 V c (ix2 (rowOf t p) q) := by
  rw [k0_pay9_apply]
  show _ = ∑ k : Fin 2048, max (Y1h V c (ix2 (rowOf t p) k)) 0 * W3 V c (ix2 k q)
  exact Finset.sum_congr rfl fun k _ => by rw [pay8_blk, iblk0_3_apply]

/-- Through an embedding that sends (p, q) of block t to (128 t + p, q), a function that agrees with `G` entry by entry agrees with it on the block. -/
theorem rows_read {C : ℕ} {β : Type} (t : Fin cfg0.N) (emb : (⟨2, ![128, C]⟩ : Shape).Idx → (⟨2, ![4096, C]⟩ : Shape).Idx)
    (he : ∀ p q, emb (ix2 p q) = ix2 (rowOf t p) q) (g : (⟨2, ![128, C]⟩ : Shape).Idx → β) (G : (⟨2, ![4096, C]⟩ : Shape).Idx → β)
    (hg : ∀ p q, g (ix2 p q) = G (ix2 (rowOf t p) q)) (j : (⟨2, ![128, C]⟩ : Shape).Idx) : g j = G (emb j) := by
  obtain ⟨p, q, rfl⟩ : ∃ p q, j = ix2 p q := ⟨j 0, j 1, eq_ix2 j⟩
  rw [he, hg]

/-- Such blocks cover the array: row i lies in block i / 128. -/
theorem rows_cover {C : ℕ} (emb : Fin cfg0.N → (⟨2, ![128, C]⟩ : Shape).Idx → (⟨2, ![4096, C]⟩ : Shape).Idx)
    (he : ∀ t p q, emb t (ix2 p q) = ix2 (rowOf t p) q) (i : (⟨2, ![4096, C]⟩ : Shape).Idx) : ∃ t j, emb t j = i := by
  have hi : (i 0).val < 4096 := (i 0).isLt
  have hN : cfg0.N = 32 := N_0
  refine ⟨⟨(i 0).val / 128, by omega⟩, ix2 ⟨(i 0).val % 128, Nat.mod_lt _ (by norm_num)⟩ (i 1 : Fin C), (he _ _ _).trans ?_⟩
  refine (congrArg (fun r : Fin 4096 => ix2 r (i 1 : Fin C)) (Fin.ext ?_)).trans (eq_ix2 i).symm
  show 128 * ((i 0).val / 128) + (i 0).val % 128 = (i 0).val
  omega

theorem emb0_4 (t : Fin cfg0.N) (p : Fin 128) (q : Fin 2048) : ((cfg0.win 4).blk t).view.emb (ix2 p q) = ix2 (rowOf t p) q := by
  obtain ⟨-, -, -, -, -, -, -, -, e0, e1, -⟩ := idx_facts0 t
  exact Shape.idx_ext₂ (by show win0_4.index t (0 : Fin 2) * 128 + 1 * p.val = 128 * t.val + p.val; omega) (by show win0_4.index t (1 : Fin 2) * 2048 + 1 * q.val = q.val; omega)

theorem emb0_5 (t : Fin cfg0.N) (p : Fin 128) (q : Fin 2048) : ((cfg0.win 5).blk t).view.emb (ix2 p q) = ix2 (rowOf t p) q := by
  obtain ⟨-, -, -, -, -, -, -, -, -, -, e0, e1, -⟩ := idx_facts0 t
  exact Shape.idx_ext₂ (by show win0_5.index t (0 : Fin 2) * 128 + 1 * p.val = 128 * t.val + p.val; omega) (by show win0_5.index t (1 : Fin 2) * 2048 + 1 * q.val = q.val; omega)

theorem emb0_6 (t : Fin cfg0.N) (p : Fin 128) (q : Fin 2050) : ((cfg0.win 6).blk t).view.emb (ix2 p q) = ix2 (rowOf t p) q := by
  obtain ⟨-, -, -, -, -, -, -, -, -, -, -, -, e0, e1⟩ := idx_facts0 t
  exact Shape.idx_ext₂ (by show win0_6.index t (0 : Fin 2) * 128 + 1 * p.val = 128 * t.val + p.val; omega) (by show win0_6.index t (1 : Fin 2) * 2050 + 1 * q.val = q.val; omega)

end

end Mat0

section
variable (V : (c : Dev nD) → (b : Ref sig .tc) → Buf (Elt Ideal) ((c : Thread nD τ).loc b))

abbrev Y1 (c : Dev nD) : Spec.Mat 4096 2050 :=
  Spec.mm (Spec.relu (Spec.mm (Spec.relu (Spec.mm (V c main_arg0 : Spec.Mat 4096 2048) (V c main_v3 : Spec.Mat 2048 2048)))
    (V c main_v7 : Spec.Mat 2048 2048))) (V c main_v11 : Spec.Mat 2048 2050)

theorem pay9_blk (c : Dev nD) (t : Fin cfg0.N) (r : Fin 128) (q : Fin 2050) :
    k0_pay9 (F := Ideal) (iblk0 V c 0 t) (iblk0 V c 1 t) (iblk0 V c 2 t) (iblk0 V c 3 t) (ix2 r q)
      = Y1 V c (ix2 (⟨128 * t.val + r.val, by have := t.isLt; have := r.isLt; have : cfg0.N = 32 := N_0; omega⟩ : Fin 4096) q) :=
  Mat0.pay9_rows V c t r q

theorem arr0_4 (c : Dev nD) : (dat0 (F := Ideal) V c).arrAt 4 cfg0.N = Spec.mm (V c main_arg0) (V c main_v3) :=
  (dat0 (F := Ideal) V c).arrAt_eq_of_cover 4 (Mat0.Y0 V c)
    (fun t _ => by
      show (cfg0.win 4).cut (grid0.coords t) ((dat0 (F := Ideal) V c).after 4 t) = _
      rw [after0_4]
      exact funext (Mat0.rows_read t _ (Mat0.emb0_4 t) _ _ (Mat0.pay7_blk V c t)))
    fun i => by
      obtain ⟨t, j, h⟩ := Mat0.rows_cover (C := 2048) (fun t => ((cfg0.win 4).blk t).view.emb) Mat0.emb0_4 i
      exact ⟨t, flush0_4 t, h ▸ ((cfg0.win 4).blk t).view.emb_mem_set j⟩

theorem arr0_5 (c : Dev nD) :
    (dat0 (F := Ideal) V c).arrAt 5 cfg0.N = Spec.mm (Spec.relu (Spec.mm (V c main_arg0) (V c main_v3))) (V c main_v7) :=
  (dat0 (F := Ideal) V c).arrAt_eq_of_cover 5 (Mat0.Y1h V c)
    (fun t _ => by
      show (cfg0.win 5).cut (grid0.coords t) ((dat0 (F := Ideal) V c).after 5 t) = _
      rw [after0_5]
      exact funext (Mat0.rows_read t _ (Mat0.emb0_5 t) _ _ (Mat0.pay8_blk V c t)))
    fun i => by
      obtain ⟨t, j, h⟩ := Mat0.rows_cover (C := 2048) (fun t => ((cfg0.win 5).blk t).view.emb) Mat0.emb0_5 i
      exact ⟨t, flush0_5 t, h ▸ ((cfg0.win 5).blk t).view.emb_mem_set j⟩

theorem arr0_6 (c : Dev nD) :
    (dat0 (F := Ideal) V c).arrAt 6 cfg0.N
      = Spec.mm (Spec.relu (Spec.mm (Spec.relu (Spec.mm (V c main_arg0) (V c main_v3))) (V c main_v7))) (V c main_v11) :=
  (dat0 (F := Ideal) V c).arrAt_eq_of_cover 6 (Mat0.Y1 V c)
    (fun t _ => by
      show (cfg0.win 6).cut (grid0.coords t) ((dat0 (F := Ideal) V c).after 6 t) = _
      rw [after0_6]
      exact funext (Mat0.rows_read t _ (Mat0.emb0_6 t) _ _ (Mat0.pay9_rows V c t)))
    fun i => by
      obtain ⟨t, j, h⟩ := Mat0.rows_cover (C := 2050) (fun t => ((cfg0.win 6).blk t).view.emb) Mat0.emb0_6 i
      exact ⟨t, flush0_6 t, h ▸ ((cfg0.win 6).blk t).view.emb_mem_set j⟩

end

end Cert.KernelIdeal.Hand

end
-- ==== Proof.KIV0S.lean ====
import proofs.«138652_j14508399526340_1_alg».proof.Proof.KIR0
import proofs.«138652_j14508399526340_1_alg».proof.Proof.Spec
import proofs.«138652_j14508399526340_1_alg».proof.Proof.LibRows
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem k0_pay5_apply (j : S1x1.Idx) : k0_pay5 (F := Ideal) j = 0 := by
  unfold k0_pay5
  rw [shapeCast_self]
  exact Ideal.ofBits_zero_f32

theorem k0_pay6_apply (j : S1x1.Idx) : k0_pay6 (F := Ideal) j = 0 := by
  unfold k0_pay6
  rw [shapeCast_self]
  exact Ideal.ofBits_zero_f32

theorem k0_pay1_eq (v : FVec Ideal S1x1 .f32) : k0_pay1 v = v := by
  unfold k0_pay1
  exact shapeCast_self v _

theorem s0_lift_col (h : S128x1.Reduces [0] S1) (k : Fin (S128x1.size 0)) :
    h.lift (ix1 (0 : Fin 1)) k = ix2 (⟨k.val, k.isLt⟩ : Fin 128) (0 : Fin 1) := by
  funext a; apply Fin.ext
  fin_cases a <;> rfl

theorem s0_colSum_apply (v : FVec Ideal S128x1 .f32) (h : S128x1.Reduces [0] S1) (hc : S1.ShapeCasts S1x1) (hφ) (hacc) :
    shapeCast S1x1 (multiReduction .add [0] S1 v 0x00000000#32 h hφ hacc) hc (ix2 (0 : Fin 1) (0 : Fin 1))
      = ∑ r : Fin 128, v (ix2 r (0 : Fin 1)) := by
  rw [Cert.LibRows.shapeCast_a_a1_apply]
  refine (Ideal.multiReduction_add_single v _ h hφ hacc (ix1 (0 : Fin 1))).trans ?_
  exact Finset.sum_congr rfl fun k _ => congrArg v (s0_lift_col h k)

theorem s0_colSlice_apply (y : FVec Ideal S128x2050 .f32) (q : Fin 2050) (h : S128x2050.Slices ![0, q.val] S128x1) (r : Fin 128) :
    extractStridedSlice S128x1 ![0, q.val] y h (ix2 r (0 : Fin 1)) = y (ix2 r q) := by
  refine extractStridedSlice_apply _ y h _ (ix2 r q) fun a => ?_
  fin_cases a
  · show r.val = 0 + r.val; omega
  · show q.val = q.val + 0; omega

theorem k0_pay11_apply (x : Vec Ideal S128x2048 .f32) (w1 w2 : Vec Ideal S2048x2048 .bf16) (w3 : Vec Ideal S2048x2050 .bf16)
    (s : Vec Ideal S1x1 .f32) :
    k0_pay11 x w1 w2 w3 s (ix2 (0 : Fin 1) (0 : Fin 1))
      = s (ix2 (0 : Fin 1) (0 : Fin 1)) + ∑ r : Fin 128, Ideal.tanh (k0_pay9 x w1 w2 w3 (ix2 r (⟨2048, by norm_num⟩ : Fin 2050))) := by
  unfold k0_pay11
  rw [addf_apply]
  refine congrArg (s (ix2 (0 : Fin 1) (0 : Fin 1)) + ·) ((s0_colSum_apply _ _ _ _ _).trans (Finset.sum_congr rfl fun r _ => ?_))
  show Ideal.tanh _ = _
  exact congrArg Ideal.tanh (s0_colSlice_apply _ (⟨2048, by norm_num⟩ : Fin 2050) _ r)

theorem k0_pay10_apply (x : Vec Ideal S128x2048 .f32) (w1 w2 : Vec Ideal S2048x2048 .bf16) (w3 : Vec Ideal S2048x2050 .bf16) (r : Fin 128) :
    k0_pay10 x w1 w2 w3 (ix2 r (0 : Fin 1)) = Ideal.tanh (k0_pay9 x w1 w2 w3 (ix2 r (⟨2047, by norm_num⟩ : Fin 2050))) := by
  unfold k0_pay10
  show Ideal.tanh _ = _
  exact congrArg Ideal.tanh (s0_colSlice_apply _ (⟨2047, by norm_num⟩ : Fin 2050) _ r)

theorem k0_pay2_apply (v : FVec Ideal S128x1 .f32) (s : Vec Ideal S1x1 .f32) :
    k0_pay2 v s (ix2 (0 : Fin 1) (0 : Fin 1)) = s (ix2 (0 : Fin 1) (0 : Fin 1)) + ∑ r : Fin 128, v (ix2 r (0 : Fin 1)) := by
  unfold k0_pay2
  rw [shapeCast_self, addf_apply]
  exact congrArg (s (ix2 (0 : Fin 1) (0 : Fin 1)) + ·) (s0_colSum_apply _ _ _ _ _)

theorem win0_7_off : ∀ (t : Fin grid0.N) (a : Fin win0_7.shape.rank), win0_7.index t a * win0_7.size a = 0 := by decide +kernel
theorem win0_7_ext : ∀ (t : Fin grid0.N) (a : Fin win0_7.shape.rank), win0_7.xsize (grid0.coords t) a = 1 := by decide +kernel
theorem arr0_7_size : ∀ a : Fin main_v12_3.ty.shape.rank, main_v12_3.ty.shape.size a = 1 := by decide
theorem win0_8_off : ∀ (t : Fin grid0.N) (a : Fin win0_8.shape.rank), win0_8.index t a * win0_8.size a = 0 := by decide +kernel
theorem win0_8_ext : ∀ (t : Fin grid0.N) (a : Fin win0_8.shape.rank), win0_8.xsize (grid0.coords t) a = 1 := by decide +kernel
theorem arr0_8_size : ∀ a : Fin main_v12_4.ty.shape.rank, main_v12_4.ty.shape.size a = 1 := by decide

def s0_colT (Y : Cert.Spec.Mat 4096 2050) (q : Fin 2050) (p : ℕ) : EReal :=
  if h : p < 4096 then Ideal.tanh (Y (ix2 (⟨p, h⟩ : Fin 4096) q)) else 0

/-- A cell whose one entry is the sum of tanh of column q over all 4096 rows holds, divided by 4096, the column's mean. -/
theorem s0_mean (Y : Cert.Spec.Mat 4096 2050) (q : Fin 2050) (s : Vec Ideal S1x1 .f32)
    (hs : s (ix2 (0 : Fin 1) (0 : Fin 1)) = ∑ p ∈ Finset.range 4096, s0_colT Y q p) (y : S1x1.Idx) :
    Ideal.div (s y) Cert.Spec.c4096 = Cert.Spec.colMeanTanh Y q := by
  have hy : y = (ix2 (0 : Fin 1) (0 : Fin 1) : S1x1.Idx) :=
    (eq_ix2 y).trans (congrArg₂ ix2 (Subsingleton.elim (α := Fin 1) _ _) (Subsingleton.elim (α := Fin 1) _ _))
  rw [hy, hs, ← Fin.sum_univ_eq_sum_range (fun p => s0_colT Y q p) 4096]
  exact congrArg (Ideal.div · Cert.Spec.c4096) (Finset.sum_congr rfl fun p _ => dif_pos p.isLt)

section
variable (V : (c : Dev nD) → (b : Ref sig .tc) → Buf (Elt Ideal) ((c : Thread nD τ).loc b)) (c : Dev nD) (Y : Cert.Spec.Mat 4096 2050)
  (hY : ∀ (t : Fin cfg0.N) (r : Fin 128) (q : Fin 2050), k0_pay9 (F := Ideal) (iblk0 V c 0 t) (iblk0 V c 1 t) (iblk0 V c 2 t) (iblk0 V c 3 t) (ix2 r q) = Y (ix2 (⟨128 * t.val + r.val, by have := t.isLt; have := r.isLt; have : cfg0.N = 32 := N_0; omega⟩ : Fin 4096) q))
include hY

theorem s0_blockSum (q : Fin 2050) (n : ℕ) (hn : n < cfg0.N) :
    ∑ r : Fin 128, Ideal.tanh (k0_pay9 (F := Ideal) (iblk0 V c 0 ⟨n, hn⟩) (iblk0 V c 1 ⟨n, hn⟩) (iblk0 V c 2 ⟨n, hn⟩) (iblk0 V c 3 ⟨n, hn⟩) (ix2 r q))
      = ∑ r ∈ Finset.range 128, s0_colT Y q (128 * n + r) := by
  rw [← Fin.sum_univ_eq_sum_range (fun r => s0_colT Y q (128 * n + r)) 128]
  refine Finset.sum_congr rfl fun r _ => ?_
  have hb : 128 * n + r.val < 4096 := by have := r.isLt; have : cfg0.N = 32 := N_0; omega
  rw [hY ⟨n, hn⟩ r q]
  unfold s0_colT
  rw [dif_pos hb]

theorem sc0_0_sum : ∀ (n : ℕ) (hn : n < cfg0.N), sc0_0 V c n hn (ix2 (0 : Fin 1) (0 : Fin 1))
      = ∑ p ∈ Finset.range (128 * (n + 1)), s0_colT Y (⟨2048, by norm_num⟩ : Fin 2050) p
  | 0, hn => by
    have e : sc0_0 V c 0 hn = k0_pay1 (k0_pay11 (iblk0 V c 0 ⟨0, hn⟩) (iblk0 V c 1 ⟨0, hn⟩) (iblk0 V c 2 ⟨0, hn⟩) (iblk0 V c 3 ⟨0, hn⟩) (k0_pay5 (F := Ideal))) := rfl
    rw [e, k0_pay1_eq, k0_pay11_apply, k0_pay5_apply, zero_add, s0_blockSum V c Y hY _ 0 hn]
    rfl
  | n + 1, hn => by
    have h0 : ¬(n + 1) % 32 = 0 := by have : cfg0.N = 32 := N_0; omega
    have e : sc0_0 V c (n + 1) hn = k0_pay1 (k0_pay11 (iblk0 V c 0 ⟨n + 1, hn⟩) (iblk0 V c 1 ⟨n + 1, hn⟩) (iblk0 V c 2 ⟨n + 1, hn⟩) (iblk0 V c 3 ⟨n + 1, hn⟩) (sc0_0 V c n (Nat.lt_of_succ_lt hn))) :=
      (if_neg h0).trans rfl
    rw [e, k0_pay1_eq, k0_pay11_apply, sc0_0_sum n (Nat.lt_of_succ_lt hn), s0_blockSum V c Y hY _ (n + 1) hn,
      show 128 * (n + 1 + 1) = 128 * (n + 1) + 128 from by ring, Finset.sum_range_add]

theorem sc0_1_sum : ∀ (n : ℕ) (hn : n < cfg0.N), sc0_1 V c n hn (ix2 (0 : Fin 1) (0 : Fin 1))
      = ∑ p ∈ Finset.range (128 * (n + 1)), s0_colT Y (⟨2047, by norm_num⟩ : Fin 2050) p
  | 0, hn => by
    have e : sc0_1 V c 0 hn = k0_pay2 (k0_pay10 (iblk0 V c 0 ⟨0, hn⟩) (iblk0 V c 1 ⟨0, hn⟩) (iblk0 V c 2 ⟨0, hn⟩) (iblk0 V c 3 ⟨0, hn⟩)) (k0_pay6 (F := Ideal)) := rfl
    rw [e, k0_pay2_apply, k0_pay6_apply, zero_add]
    simp only [k0_pay10_apply]
    rw [s0_blockSum V c Y hY _ 0 hn]
    rfl
  | n + 1, hn => by
    have h0 : ¬(n + 1) % 32 = 0 := by have : cfg0.N = 32 := N_0; omega
    have e : sc0_1 V c (n + 1) hn = k0_pay2 (k0_pay10 (iblk0 V c 0 ⟨n + 1, hn⟩) (iblk0 V c 1 ⟨n + 1, hn⟩) (iblk0 V c 2 ⟨n + 1, hn⟩) (iblk0 V c 3 ⟨n + 1, hn⟩)) (sc0_1 V c n (Nat.lt_of_succ_lt hn)) :=
      (if_neg h0).trans rfl
    rw [e, k0_pay2_apply, sc0_1_sum n (Nat.lt_of_succ_lt hn)]
    simp only [k0_pay10_apply]
    rw [s0_blockSum V c Y hY _ (n + 1) hn,
      show 128 * (n + 1 + 1) = 128 * (n + 1) + 128 from by ring, Finset.sum_range_add]

theorem arr0_7_of : (dat0 (F := Ideal) V c).arrAt 7 cfg0.N = fun _ => Cert.Spec.colMeanTanh Y (⟨2048, by norm_num⟩ : Fin 2050) := by
  have hL : 31 < grid0.N := by rw [N_0]; norm_num
  refine (dat0 V c).arrAt_eq_of_cover 7 _ (fun t hf => ?_) (fun i => ?_)
  · have h31 : t.val = 31 := by have := (flush0_7 t).mp hf; have := t.isLt; have : cfg0.N = 32 := N_0; omega
    obtain ⟨n, hn⟩ := t
    obtain rfl : n = 31 := h31
    funext y
    show (dat0 V c).after 7 ⟨31, hn⟩ y = _
    rw [after0_7, View.read_apply]
    exact s0_mean Y _ _ (sc0_0_sum V c Y hY 31 hn) y
  · refine ⟨⟨31, hL⟩, (flush0_7 _).mpr rfl, ?_⟩
    show i ∈ ((View.whole main_v12_3).slice (win0_7.rect ⟨31, hL⟩)).set
    rw [View.set_slice_whole, Rect.mem_set_unit]
    intro a
    have hi : (i a : Nat) < main_v12_3.ty.shape.size a := (i a).isLt
    have hs : main_v12_3.ty.shape.size a = 1 := arr0_7_size a
    rw [win0_7_off, win0_7_ext]
    omega

theorem arr0_8_of : (dat0 (F := Ideal) V c).arrAt 8 cfg0.N = fun _ => Cert.Spec.colMeanTanh Y (⟨2047, by norm_num⟩ : Fin 2050) := by
  have hL : 31 < grid0.N := by rw [N_0]; norm_num
  refine (dat0 V c).arrAt_eq_of_cover 8 _ (fun t hf => ?_) (fun i => ?_)
  · have h31 : t.val = 31 := by have := (flush0_8 t).mp hf; have := t.isLt; have : cfg0.N = 32 := N_0; omega
    obtain ⟨n, hn⟩ := t
    obtain rfl : n = 31 := h31
    funext y
    show (dat0 V c).after 8 ⟨31, hn⟩ y = _
    rw [after0_8, View.read_apply]
    exact s0_mean Y _ _ (sc0_1_sum V c Y hY 31 hn) y
  · refine ⟨⟨31, hL⟩, (flush0_8 _).mpr rfl, ?_⟩
    show i ∈ ((View.whole main_v12_4).slice (win0_8.rect ⟨31, hL⟩)).set
    rw [View.set_slice_whole, Rect.mem_set_unit]
    intro a
    have hi : (i a : Nat) < main_v12_4.ty.shape.size a := (i a).isLt
    have hs : main_v12_4.ty.shape.size a = 1 := arr0_8_size a
    rw [win0_8_off, win0_8_ext]
    omega

end

end Cert.KernelIdeal.Hand

end
-- ==== Proof.LibUpdate.lean ====
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section
namespace Cert.LibUpdate
open Idealize.ShloMosaic Idealize.ShloMosaic.ValueIdx

/-- The dimension numbers of a K×M by K×N product contracted on both first axes. -/
def dotRows (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem lhsIdx_dotRows (K M N : ℕ) (p : Fin M) (q : Fin N) (k : Fin K) :
    (dotRows K M N).lhsIdx (ix2 p q) ((contrEquiv1 (dotRows K M N) K rfl rfl).symm k) = ix2 k p := by
  funext a
  apply Fin.ext
  match a with
  | ⟨0, _⟩ => exact ((dotRows K M N).lhsIdx_val_of_single rfl _ _).trans (contrEquiv1_symm_val (dotRows K M N) K rfl rfl k)
  | ⟨1, _⟩ => rfl

theorem rhsIdx_dotRows (K M N : ℕ) (p : Fin M) (q : Fin N) (k : Fin K) :
    (dotRows K M N).rhsIdx (ix2 p q) ((contrEquiv1 (dotRows K M N) K rfl rfl).symm k) = ix2 k q := by
  funext a
  apply Fin.ext
  match a with
  | ⟨0, _⟩ => exact ((dotRows K M N).rhsIdx_val_of_single rfl _ _).trans (contrEquiv1_symm_val (dotRows K M N) K rfl rfl k)
  | ⟨1, _⟩ => rfl

/-- Onto the zero splat such a product is, at (p, q), the sum over the rows k of l (k, p) · r (k, q). -/
theorem matmul_rows_apply (K M N : ℕ) {φ₁ φ₂ : FTy} (prec : Option ContractPrecision)
    (l : FVec Ideal ⟨2, ![K, M]⟩ φ₁) (r : FVec Ideal ⟨2, ![K, N]⟩ φ₂) (p : Fin M) (q : Fin N) :
    matmul (dotRows K M N) prec l r (constant ⟨2, ![M, N]⟩ .f32 0x00000000#32) (ix2 p q)
      = ∑ k : Fin K, l (ix2 k p) * r (ix2 k q) := by
  refine (Ideal.matmul_constant_zero_apply (dotRows K M N) prec l r (ix2 p q)).trans ?_
  rw [← Equiv.sum_comp (contrEquiv1 (dotRows K M N) K rfl rfl).symm]
  refine Finset.sum_congr rfl fun k _ => ?_
  rw [lhsIdx_dotRows, rhsIdx_dotRows]

/-- The one entry of a [1, 1] array. -/
theorem extractAt_00 {α : Type} (d : (⟨2, ![1, 1]⟩ : Shape).Idx → α) (h : ∀ a, (![0, 0] : Fin 2 → ℕ) a < (⟨2, ![1, 1]⟩ : Shape).size a) :
    extractAt ![0, 0] d h = d (ix2 (0 : Fin 1) (0 : Fin 1)) :=
  congrArg d (funext fun a => Fin.ext (match a with | ⟨0, _⟩ => rfl | ⟨1, _⟩ => rfl))

/-- A function on an a×b block agrees with G through a map that adds (oa, ob) to the coordinates, if it does entry by entry. -/
theorem block_eq_of_apply {β : Type*} {a b A B : ℕ} (g : (⟨2, ![a, b]⟩ : Shape).Idx → β) (G : (⟨2, ![A, B]⟩ : Shape).Idx → β)
    (emb : (⟨2, ![a, b]⟩ : Shape).Idx → (⟨2, ![A, B]⟩ : Shape).Idx) (oa ob : ℕ)
    (h0 : ∀ j, (emb j 0).val = oa + (j 0).val) (h1 : ∀ j, (emb j 1).val = ob + (j 1).val)
    (hg : ∀ (p : Fin a) (q : Fin b) (P : Fin A) (Q : Fin B), P.val = oa + p.val → Q.val = ob + q.val → g (ix2 p q) = G (ix2 P Q))
    (j : (⟨2, ![a, b]⟩ : Shape).Idx) : g j = G (emb j) :=
  (congrArg g (eq_ix2 j)).trans ((hg (j 0) (j 1) (emb j 0) (emb j 1) (h0 j) (h1 j)).trans (congrArg G (eq_ix2 (emb j)).symm))

theorem lt_block {K n : ℕ} (k : Fin K) (r : Fin n) : k.val * n + r.val < K * n :=
  Nat.lt_of_lt_of_le (Nat.add_lt_add_left r.isLt _) (by rw [← Nat.succ_mul]; exact Nat.mul_le_mul_right _ k.isLt)

/-- A sum over K · n terms is the sum of its K runs of n. -/
theorem sum_blocks {β : Type*} [AddCommMonoid β] (K n : ℕ) (f : Fin (K * n) → β) :
    ∑ b, f b = ∑ k : Fin K, ∑ r : Fin n, f ⟨k.val * n + r.val, lt_block k r⟩ := by
  rw [← Equiv.sum_comp finProdFinEquiv f, Fintype.sum_prod_type]
  refine Finset.sum_congr rfl fun k _ => Finset.sum_congr rfl fun r _ => congrArg f (Fin.ext ?_)
  show r.val + n * k.val = k.val * n + r.val
  rw [Nat.mul_comm, Nat.add_comm]

section Run
variable {β : Type*} [AddCommMonoid β] {N : ℕ} (J : ℕ) (s A : (m : ℕ) → m < N → β)
  (h0 : ∀ m h, m % J = 0 → s m h = 0 + A m h)
  (hs : ∀ m (h : m + 1 < N), ¬(m + 1) % J = 0 → s (m + 1) h = s m (Nat.lt_of_succ_lt h) + A (m + 1) h)
include h0 hs

/-- A quantity set to 0 + A at the multiples of J and increased by A at every other point is, at J q + j with j < J, the sum of A over J q … J q + j. -/
theorem run_prefix (q : ℕ) : ∀ (j : ℕ) (_ : j < J) (h : J * q + j < N),
    s (J * q + j) h = ∑ k : Fin (j + 1), A (J * q + k.val) (Nat.lt_of_le_of_lt (Nat.add_le_add_left (Nat.le_of_lt_succ k.isLt) _) h)
  | 0, _, h => by
    rw [Fin.sum_univ_one]
    exact (h0 _ h (Nat.mul_mod_right J q)).trans (zero_add _)
  | j + 1, hj, h => by
    rw [Fin.sum_univ_castSucc]
    exact (hs (J * q + j) h (by rw [Nat.add_assoc, Nat.mul_add_mod, Nat.mod_eq_of_lt hj]; exact Nat.succ_ne_zero j)).trans
      (congrArg (· + _) (run_prefix q j (Nat.lt_of_succ_lt hj) (Nat.lt_of_succ_lt h)))

end Run

/-- At the last point t of a run of J + 1 points whose k-th addend is the k-th run of n terms of f, the quantity is the sum of f. -/
theorem run_total {β : Type*} [AddCommMonoid β] {N : ℕ} (J n : ℕ) (s A : (m : ℕ) → m < N → β) (f : Fin ((J + 1) * n) → β)
    (h0 : ∀ m h, m % (J + 1) = 0 → s m h = 0 + A m h)
    (hs : ∀ m (h : m + 1 < N), ¬(m + 1) % (J + 1) = 0 → s (m + 1) h = s m (Nat.lt_of_succ_lt h) + A (m + 1) h)
    (t : ℕ) (ht : t < N) (hl : t % (J + 1) = J)
    (hA : ∀ (k : Fin (J + 1)) (m : ℕ) (h : m < N), m % (J + 1) = k.val → m / (J + 1) = t / (J + 1) →
      A m h = ∑ r : Fin n, f ⟨k.val * n + r.val, lt_block k r⟩) :
    s t ht = ∑ b, f b := by
  have e : (J + 1) * (t / (J + 1)) + J = t := by have := Nat.div_add_mod t (J + 1); rwa [hl] at this
  have h' : (J + 1) * (t / (J + 1)) + J < N := lt_of_eq_of_lt e ht
  have same : ∀ (u : ℕ) (hu : u < N), u = t → s u hu = s t ht := fun u hu e => by subst e; rfl
  rw [← same _ h' e, run_prefix (J + 1) s A h0 hs (t / (J + 1)) J (Nat.lt_succ_self J) h', sum_blocks]
  exact Finset.sum_congr rfl fun k _ => hA k _ _ ((Nat.mul_add_mod _ _ _).trans (Nat.mod_eq_of_lt k.isLt))
    (by rw [Nat.mul_add_div (Nat.succ_pos J), Nat.div_eq_of_lt k.isLt, Nat.add_zero])

end Cert.LibUpdate
end
-- ==== Proof.KIV1.lean ====
import proofs.«138652_j14508399526340_1_alg».proof.Proof.KIR1Dat
import proofs.«138652_j14508399526340_1_alg».proof.Proof.Spec
import proofs.«138652_j14508399526340_1_alg».proof.Proof.LibRows
import proofs.«138652_j14508399526340_1_alg».proof.Proof.LibUpdate
import Idealize.ShloMosaic.Lib.Pipeline.Value

noncomputable section

namespace Cert.KernelIdeal.Hand

open Cert.KernelIdeal Cert.KernelIdeal.Gen Cert.LibUpdate
open Idealize.ShloMosaic Idealize.ShloMosaic.TcCoe Idealize.ShloMosaic.ValueIdx

theorem k1_pay1_apply (p q : Fin 512) : k1_pay1 (F := Ideal) (ix2 p q) = 0 := by
  unfold k1_pay1
  simp only [shapeCast_self]
  exact Ideal.ofBits_zero_f32

theorem k1_pay2_apply (x0 x1 : Vec Ideal S1024x512 .f32) (acc : Vec Ideal S512x512 .f32) (p q : Fin 512) :
    k1_pay2 x0 x1 acc (ix2 p q) = acc (ix2 p q) + ∑ k : Fin 1024, x0 (ix2 k p) * x1 (ix2 k q) := by
  unfold k1_pay2
  simp only [shapeCast_self]
  exact congrArg (acc (ix2 p q) + ·) (matmul_rows_apply 1024 512 512 none _ _ p q)

theorem k1_pay3_apply (e acc : Vec Ideal S512x512 .f32) (p q : Fin 512) :
    k1_pay3 e acc (ix2 p q) = Spec.c07 * e (ix2 p q) + Spec.c03 * acc (ix2 p q) := rfl

theorem k1_pay4_apply (e acc h : Vec Ideal S512x512 .f32) (d : Vec Ideal S1x1 .f32) (p q : Fin 512) :
    k1_pay4 e acc h d (ix2 p q)
      = min Spec.c03 (max Spec.cm03 (h (ix2 p q) + d (ix2 (0 : Fin 1) (0 : Fin 1)) * (Spec.c07 * e (ix2 p q) + Spec.c03 * acc (ix2 p q)))) := by
  unfold k1_pay4
  simp only [extractAt_00]
  rfl

/-- Each window's block index at the grid point t = (i·4 + j)·4 + k; windows 3, 5 and 6 have window 2's. -/
theorem idx_facts1 : ∀ t : Fin cfg1.N,
    win1_0.index t (0 : Fin 2) = t.val % 4 ∧ win1_0.index t (1 : Fin 2) = t.val / 16
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4
    ∧ win1_4.index t (0 : Fin 2) = 0 ∧ win1_4.index t (1 : Fin 2) = 0 :=
  (by decide +kernel : ∀ t : Fin grid1.N, _)

section
variable (V : (c : Dev nD) → (b : Ref sig .tc) → Buf (Elt Ideal) ((c : Thread nD τ).loc b))

abbrev argX1 (c : Dev nD) : Spec.Mat 4096 2048 := V c main_arg0
abbrev argY1 (c : Dev nD) : Spec.Mat 4096 2048 := V c main_v12_0
abbrev argE1 (c : Dev nD) : Spec.Mat 2048 2048 := V c main_arg4
abbrev argH1 (c : Dev nD) : Spec.Mat 2048 2048 := V c main_arg7
abbrev argD1 (c : Dev nD) : Spec.Mat 1 1 := V c main_v12_4
abbrev blkX1 (c : Dev nD) (t : Fin cfg1.N) : Vec Ideal S1024x512 .f32 := iblk1 V c 0 t
abbrev blkY1 (c : Dev nD) (t : Fin cfg1.N) : Vec Ideal S1024x512 .f32 := iblk1 V c 1 t

theorem iblk1_0_apply (c : Dev nD) (t : Fin cfg1.N) (r : Fin 1024) (p : Fin 512) (R : Fin 4096) (P : Fin 2048)
    (hR : R.val = t.val % 4 * 1024 + r.val) (hP : P.val = t.val / 16 * 512 + p.val) :
    iblk1 V c 0 t (ix2 r p) = argX1 V c (ix2 R P) := by
  obtain ⟨e0, e1, -⟩ := idx_facts1 t
  unfold iblk1
  rw [View.read_apply]
  exact congrArg (argX1 V c) (Shape.idx_ext₂ (by show win1_0.index t (0 : Fin 2) * 1024 + 1 * r.val = R.val; omega)
    (by show win1_0.index t (1 : Fin 2) * 512 + 1 * p.val = P.val; omega))

theorem iblk1_1_apply (c : Dev nD) (t : Fin cfg1.N) (r : Fin 1024) (q : Fin 512) (R : Fin 4096) (Q : Fin 2048)
    (hR : R.val = t.val % 4 * 1024 + r.val) (hQ : Q.val = t.val / 4 % 4 * 512 + q.val) :
    iblk1 V c 1 t (ix2 r q) = argY1 V c (ix2 R Q) := by
  obtain ⟨-, -, e0, e1, -⟩ := idx_facts1 t
  unfold iblk1
  rw [View.read_apply]
  exact congrArg (argY1 V c) (Shape.idx_ext₂ (by show win1_1.index t (0 : Fin 2) * 1024 + 1 * r.val = R.val; omega)
    (by show win1_1.index t (1 : Fin 2) * 512 + 1 * q.val = Q.val; omega))

theorem iblk1_2_apply (c : Dev nD) (t : Fin cfg1.N) (p q : Fin 512) (P Q : Fin 2048)
    (hP : P.val = t.val / 16 * 512 + p.val) (hQ : Q.val = t.val / 4 % 4 * 512 + q.val) :
    iblk1 V c 2 t (ix2 p q) = argE1 V c (ix2 P Q) := by
  obtain ⟨-, -, -, -, e0, e1, -⟩ := idx_facts1 t
  unfold iblk1
  rw [View.read_apply]
  exact congrArg (argE1 V c) (Shape.idx_ext₂ (by show win1_2.index t (0 : Fin 2) * 512 + 1 * p.val = P.val; omega)
    (by show win1_2.index t (1 : Fin 2) * 512 + 1 * q.val = Q.val; omega))

theorem iblk1_3_apply (c : Dev nD) (t : Fin cfg1.N) (p q : Fin 512) (P Q : Fin 2048)
    (hP : P.val = t.val / 16 * 512 + p.val) (hQ : Q.val = t.val / 4 % 4 * 512 + q.val) :
    iblk1 V c 3 t (ix2 p q) = argH1 V c (ix2 P Q) := by
  obtain ⟨-, -, -, -, e0, e1, -⟩ := idx_facts1 t
  unfold iblk1
  rw [View.read_apply]
  exact congrArg (argH1 V c) (Shape.idx_ext₂ (by show win1_2.index t (0 : Fin 2) * 512 + 1 * p.val = P.val; omega)
    (by show win1_2.index t (1 : Fin 2) * 512 + 1 * q.val = Q.val; omega))

theorem iblk1_4_apply (c : Dev nD) (t : Fin cfg1.N) :
    iblk1 V c 4 t (ix2 (0 : Fin 1) (0 : Fin 1)) = argD1 V c (ix2 (0 : Fin 1) (0 : Fin 1)) := by
  obtain ⟨-, -, -, -, -, -, e0, e1⟩ := idx_facts1 t
  unfold iblk1
  rw [View.read_apply]
  exact congrArg (argD1 V c) (Shape.idx_ext₂ (by show win1_4.index t (0 : Fin 2) * 1 + 1 * 0 = 0; omega)
    (by show win1_4.index t (1 : Fin 2) * 1 + 1 * 0 = 0; omega))

/-- At the last point of a run (k = 3) the running sum is, at (p, q), entry (P, Q) of xᵀ · y: four runs of 1024 rows make the batch. -/
theorem sc1_flush_apply (c : Dev nD) (t : Fin cfg1.N) (h3 : t.val % 4 = 3) (p q : Fin 512) (P Q : Fin 2048)
    (hP : P.val = t.val / 16 * 512 + p.val) (hQ : Q.val = t.val / 4 % 4 * 512 + q.val) :
    sc1 V c t.val t.isLt (ix2 p q) = Spec.mmT (argX1 V c) (argY1 V c) (ix2 P Q) :=
  run_total 3 1024 (fun m h => sc1 V c m h (ix2 p q))
    (fun m h => ∑ r : Fin 1024, blkX1 V c ⟨m, h⟩ (ix2 r p) * blkY1 V c ⟨m, h⟩ (ix2 r q))
    (fun b : Fin 4096 => argX1 V c (ix2 b P) * argY1 V c (ix2 b Q))
    (fun m h hm => (congrFun (sc1_first V c ⟨m, h⟩ hm) (ix2 p q)).trans
      ((k1_pay2_apply _ _ _ p q).trans (congrArg (· + _) (k1_pay1_apply p q))))
    (fun m h hm => (congrFun (sc1_next V c ⟨m + 1, h⟩ hm) (ix2 p q)).trans (k1_pay2_apply _ _ _ p q))
    t.val t.isLt h3
    (fun k m h hm hd => Finset.sum_congr rfl fun r _ => congrArg₂ (· * ·)
      (iblk1_0_apply V c ⟨m, h⟩ r p ⟨k.val * 1024 + r.val, lt_block k r⟩ P
        (by show k.val * 1024 + r.val = m % 4 * 1024 + r.val; omega) (by show P.val = m / 16 * 512 + p.val; omega))
      (iblk1_1_apply V c ⟨m, h⟩ r q ⟨k.val * 1024 + r.val, lt_block k r⟩ Q
        (by show k.val * 1024 + r.val = m % 4 * 1024 + r.val; omega) (by show Q.val = m / 4 % 4 * 512 + q.val; omega)))

abbrev outE1 (c : Dev nD) : Spec.Mat 2048 2048 := Spec.eNew (argE1 V c) (Spec.mmT (argX1 V c) (argY1 V c))
abbrev outH1 (c : Dev nD) : Spec.Mat 2048 2048 := Spec.hebNew (argH1 V c) (outE1 V c) (argD1 V c (ix2 (0 : Fin 1) (0 : Fin 1)))

theorem after1_5_apply (c : Dev nD) (t : Fin cfg1.N) (h3 : t.val % 4 = 3) (p q : Fin 512) (P Q : Fin 2048)
    (hP : P.val = t.val / 16 * 512 + p.val) (hQ : Q.val = t.val / 4 % 4 * 512 + q.val) :
    k1_pay3 (iblk1 V c 2 t) (sc1 V c t.val t.isLt) (ix2 p q) = outE1 V c (ix2 P Q) := by
  rw [k1_pay3_apply, iblk1_2_apply V c t p q P Q hP hQ, sc1_flush_apply V c t h3 p q P Q hP hQ]
  rfl

theorem after1_6_apply (c : Dev nD) (t : Fin cfg1.N) (h3 : t.val % 4 = 3) (p q : Fin 512) (P Q : Fin 2048)
    (hP : P.val = t.val / 16 * 512 + p.val) (hQ : Q.val = t.val / 4 % 4 * 512 + q.val) :
    k1_pay4 (iblk1 V c 2 t) (sc1 V c t.val t.isLt) (iblk1 V c 3 t) (iblk1 V c 4 t) (ix2 p q) = outH1 V c (ix2 P Q) := by
  rw [k1_pay4_apply, iblk1_2_apply V c t p q P Q hP hQ, sc1_flush_apply V c t h3 p q P Q hP hQ, iblk1_3_apply V c t p q P Q hP hQ,
    iblk1_4_apply V c t]
  rfl

theorem flushed1_5_eq (c : Dev nD) (t : Fin cfg1.N) (hf : (cfg1.win 5).flush t = true) :
    (dat1 V c).flushed 5 t = ((cfg1.win 5).blk t).view.read (Elt Ideal) (outE1 V c) := by
  obtain ⟨-, -, -, -, e0, e1, -⟩ := idx_facts1 t
  show (cfg1.win 5).cut (grid1.coords t) ((dat1 V c).after 5 t) = _
  rw [after1_5]
  funext j
  rw [View.read_apply]
  exact block_eq_of_apply (k1_pay3 (iblk1 V c 2 t) (sc1 V c t.val t.isLt)) (outE1 V c) ((cfg1.win 5).blk t).view.emb
    (t.val / 16 * 512) (t.val / 4 % 4 * 512)
    (fun j => by show win1_2.index t (0 : Fin 2) * 512 + 1 * (j 0).val = _; omega)
    (fun j => by show win1_2.index t (1 : Fin 2) * 512 + 1 * (j 1).val = _; omega)
    (after1_5_apply V c t ((flush1_5 t).mp hf)) j

theorem flushed1_6_eq (c : Dev nD) (t : Fin cfg1.N) (hf : (cfg1.win 6).flush t = true) :
    (dat1 V c).flushed 6 t = ((cfg1.win 6).blk t).view.read (Elt Ideal) (outH1 V c) := by
  obtain ⟨-, -, -, -, e0, e1, -⟩ := idx_facts1 t
  show (cfg1.win 6).cut (grid1.coords t) ((dat1 V c).after 6 t) = _
  rw [after1_6]
  funext j
  rw [View.read_apply]
  exact block_eq_of_apply (k1_pay4 (iblk1 V c 2 t) (sc1 V c t.val t.isLt) (iblk1 V c 3 t) (iblk1 V c 4 t)) (outH1 V c)
    ((cfg1.win 6).blk t).view.emb (t.val / 16 * 512) (t.val / 4 % 4 * 512)
    (fun j => by show win1_2.index t (0 : Fin 2) * 512 + 1 * (j 0).val = _; omega)
    (fun j => by show win1_2.index t (1 : Fin 2) * 512 + 1 * (j 1).val = _; omega)
    (after1_6_apply V c t ((flush1_6 t).mp hf)) j
end

/-- Every index (P, Q) lies in the block, the same for both outputs, of the last point of the run for block row P / 512 and block column Q / 512. -/
theorem cover1_5 (i : S2048x2048.Idx) : ∃ t : Fin cfg1.N, (cfg1.win 5).flush t = true ∧ i ∈ ((cfg1.win 5).blk t).view.set := by
  have hi0 : (i 0).val < 2048 := (i 0).isLt
  have hi1 : (i 1).val < 2048 := (i 1).isLt
  obtain ⟨t, ht⟩ : ∃ t : Fin cfg1.N, t.val = ((i 0).val / 512 * 4 + (i 1).val / 512) * 4 + 3 :=
    ⟨⟨((i 0).val / 512 * 4 + (i 1).val / 512) * 4 + 3, by rw [show cfg1.N = 64 from N_1]; omega⟩, rfl⟩
  obtain ⟨-, -, -, -, e0, e1, -⟩ := idx_facts1 t
  refine ⟨t, (flush1_5 t).mpr (by omega), ?_⟩
  show i ∈ ((View.whole main_v14_0).slice (win1_5.rect t)).set
  rw [View.set_slice_whole, Rect.mem_set_unit]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

section
variable (V : (c : Dev nD) → (b : Ref sig .tc) → Buf (Elt Ideal) ((c : Thread nD τ).loc b))

theorem arr1_5 (c : Dev nD) : (dat1 (F := Ideal) V c).arrAt 5 cfg1.N = Spec.eNew (V c main_arg4) (Spec.mmT (V c main_arg0) (V c main_v12_0)) :=
  (dat1 V c).arrAt_eq_of_cover 5 (outE1 V c) (flushed1_5_eq V c) cover1_5

theorem arr1_6 (c : Dev nD) : (dat1 (F := Ideal) V c).arrAt 6 cfg1.N = Spec.hebNew (V c main_arg7) (Spec.eNew (V c main_arg4) (Spec.mmT (V c main_arg0) (V c main_v12_0))) (V c main_v12_4 (ix2 (0 : Fin 1) (0 : Fin 1))) :=
  (dat1 V c).arrAt_eq_of_cover 6 (outH1 V c) (flushed1_6_eq V c) cover1_5

end

end Cert.KernelIdeal.Hand

end
-- ==== Proof.KIV2.lean ====
import proofs.«138652_j14508399526340_1_alg».proof.Proof.KIR2Dat
import proofs.«138652_j14508399526340_1_alg».proof.Proof.Spec
import proofs.«138652_j14508399526340_1_alg».proof.Proof.LibRows
import proofs.«138652_j14508399526340_1_alg».proof.Proof.LibUpdate
import Idealize.ShloMosaic.Lib.Pipeline.Value

noncomputable section

namespace Cert.KernelIdeal.Hand

open Cert.KernelIdeal Cert.KernelIdeal.Gen Cert.LibUpdate
open Idealize.ShloMosaic Idealize.ShloMosaic.TcCoe Idealize.ShloMosaic.ValueIdx

theorem k2_pay1_apply (p q : Fin 512) : k2_pay1 (F := Ideal) (ix2 p q) = 0 := by
  unfold k2_pay1
  simp only [shapeCast_self]
  exact Ideal.ofBits_zero_f32

theorem k2_pay2_apply (x0 x1 : Vec Ideal S1024x512 .f32) (acc : Vec Ideal S512x512 .f32) (p q : Fin 512) :
    k2_pay2 x0 x1 acc (ix2 p q) = acc (ix2 p q) + ∑ k : Fin 1024, max (x0 (ix2 k p)) 0 * x1 (ix2 k q) := by
  unfold k2_pay2
  simp only [shapeCast_self]
  refine congrArg (acc (ix2 p q) + ·) ((matmul_rows_apply 1024 512 512 none _ _ p q).trans ?_)
  refine Finset.sum_congr rfl fun k _ => ?_
  show max (x0 (ix2 k p)) (Ideal.ofBits .f32 0x00000000#32) * x1 (ix2 k q) = _
  rw [Ideal.ofBits_zero_f32]

theorem k2_pay3_apply (e acc : Vec Ideal S512x512 .f32) (p q : Fin 512) :
    k2_pay3 e acc (ix2 p q) = Spec.c07 * e (ix2 p q) + Spec.c03 * acc (ix2 p q) := rfl

theorem k2_pay4_apply (e acc h : Vec Ideal S512x512 .f32) (d : Vec Ideal S1x1 .f32) (p q : Fin 512) :
    k2_pay4 e acc h d (ix2 p q)
      = min Spec.c03 (max Spec.cm03 (h (ix2 p q) + d (ix2 (0 : Fin 1) (0 : Fin 1)) * (Spec.c07 * e (ix2 p q) + Spec.c03 * acc (ix2 p q)))) := by
  unfold k2_pay4
  simp only [extractAt_00]
  rfl

/-- Each window's block index at the grid point t = (i·4 + j)·4 + k; windows 3, 5 and 6 have window 2's. -/
theorem idx_facts2 : ∀ t : Fin cfg2.N,
    win2_0.index t (0 : Fin 2) = t.val % 4 ∧ win2_0.index t (1 : Fin 2) = t.val / 16
    ∧ win2_1.index t (0 : Fin 2) = t.val % 4 ∧ win2_1.index t (1 : Fin 2) = t.val / 4 % 4
    ∧ win2_2.index t (0 : Fin 2) = t.val / 16 ∧ win2_2.index t (1 : Fin 2) = t.val / 4 % 4
    ∧ win2_4.index t (0 : Fin 2) = 0 ∧ win2_4.index t (1 : Fin 2) = 0 :=
  (by decide +kernel : ∀ t : Fin grid2.N, _)

section
variable (V : (c : Dev nD) → (b : Ref sig .tc) → Buf (Elt Ideal) ((c : Thread nD τ).loc b))

abbrev argX2 (c : Dev nD) : Spec.Mat 4096 2048 := V c main_v12_0
abbrev argY2 (c : Dev nD) : Spec.Mat 4096 2048 := V c main_v12_1
abbrev argE2 (c : Dev nD) : Spec.Mat 2048 2048 := V c main_arg5
abbrev argH2 (c : Dev nD) : Spec.Mat 2048 2048 := V c main_arg8
abbrev argD2 (c : Dev nD) : Spec.Mat 1 1 := V c main_v12_4
abbrev blkX2 (c : Dev nD) (t : Fin cfg2.N) : Vec Ideal S1024x512 .f32 := iblk2 V c 0 t
abbrev blkY2 (c : Dev nD) (t : Fin cfg2.N) : Vec Ideal S1024x512 .f32 := iblk2 V c 1 t

theorem iblk2_0_apply (c : Dev nD) (t : Fin cfg2.N) (r : Fin 1024) (p : Fin 512) (R : Fin 4096) (P : Fin 2048)
    (hR : R.val = t.val % 4 * 1024 + r.val) (hP : P.val = t.val / 16 * 512 + p.val) :
    iblk2 V c 0 t (ix2 r p) = argX2 V c (ix2 R P) := by
  obtain ⟨e0, e1, -⟩ := idx_facts2 t
  unfold iblk2
  rw [View.read_apply]
  exact congrArg (argX2 V c) (Shape.idx_ext₂ (by show win2_0.index t (0 : Fin 2) * 1024 + 1 * r.val = R.val; omega)
    (by show win2_0.index t (1 : Fin 2) * 512 + 1 * p.val = P.val; omega))

theorem iblk2_1_apply (c : Dev nD) (t : Fin cfg2.N) (r : Fin 1024) (q : Fin 512) (R : Fin 4096) (Q : Fin 2048)
    (hR : R.val = t.val % 4 * 1024 + r.val) (hQ : Q.val = t.val / 4 % 4 * 512 + q.val) :
    iblk2 V c 1 t (ix2 r q) = argY2 V c (ix2 R Q) := by
  obtain ⟨-, -, e0, e1, -⟩ := idx_facts2 t
  unfold iblk2
  rw [View.read_apply]
  exact congrArg (argY2 V c) (Shape.idx_ext₂ (by show win2_1.index t (0 : Fin 2) * 1024 + 1 * r.val = R.val; omega)
    (by show win2_1.index t (1 : Fin 2) * 512 + 1 * q.val = Q.val; omega))

theorem iblk2_2_apply (c : Dev nD) (t : Fin cfg2.N) (p q : Fin 512) (P Q : Fin 2048)
    (hP : P.val = t.val / 16 * 512 + p.val) (hQ : Q.val = t.val / 4 % 4 * 512 + q.val) :
    iblk2 V c 2 t (ix2 p q) = argE2 V c (ix2 P Q) := by
  obtain ⟨-, -, -, -, e0, e1, -⟩ := idx_facts2 t
  unfold iblk2
  rw [View.read_apply]
  exact congrArg (argE2 V c) (Shape.idx_ext₂ (by show win2_2.index t (0 : Fin 2) * 512 + 1 * p.val = P.val; omega)
    (by show win2_2.index t (1 : Fin 2) * 512 + 1 * q.val = Q.val; omega))

theorem iblk2_3_apply (c : Dev nD) (t : Fin cfg2.N) (p q : Fin 512) (P Q : Fin 2048)
    (hP : P.val = t.val / 16 * 512 + p.val) (hQ : Q.val = t.val / 4 % 4 * 512 + q.val) :
    iblk2 V c 3 t (ix2 p q) = argH2 V c (ix2 P Q) := by
  obtain ⟨-, -, -, -, e0, e1, -⟩ := idx_facts2 t
  unfold iblk2
  rw [View.read_apply]
  exact congrArg (argH2 V c) (Shape.idx_ext₂ (by show win2_2.index t (0 : Fin 2) * 512 + 1 * p.val = P.val; omega)
    (by show win2_2.index t (1 : Fin 2) * 512 + 1 * q.val = Q.val; omega))

theorem iblk2_4_apply (c : Dev nD) (t : Fin cfg2.N) :
    iblk2 V c 4 t (ix2 (0 : Fin 1) (0 : Fin 1)) = argD2 V c (ix2 (0 : Fin 1) (0 : Fin 1)) := by
  obtain ⟨-, -, -, -, -, -, e0, e1⟩ := idx_facts2 t
  unfold iblk2
  rw [View.read_apply]
  exact congrArg (argD2 V c) (Shape.idx_ext₂ (by show win2_4.index t (0 : Fin 2) * 1 + 1 * 0 = 0; omega)
    (by show win2_4.index t (1 : Fin 2) * 1 + 1 * 0 = 0; omega))

/-- At the last point of a run (k = 3) the running sum is, at (p, q), entry (P, Q) of max(x, 0)ᵀ · y: four runs of 1024 rows make the batch. -/
theorem sc2_flush_apply (c : Dev nD) (t : Fin cfg2.N) (h3 : t.val % 4 = 3) (p q : Fin 512) (P Q : Fin 2048)
    (hP : P.val = t.val / 16 * 512 + p.val) (hQ : Q.val = t.val / 4 % 4 * 512 + q.val) :
    sc2 V c t.val t.isLt (ix2 p q) = Spec.mmT (Spec.relu (argX2 V c)) (argY2 V c) (ix2 P Q) :=
  run_total 3 1024 (fun m h => sc2 V c m h (ix2 p q))
    (fun m h => ∑ r : Fin 1024, max (blkX2 V c ⟨m, h⟩ (ix2 r p)) 0 * blkY2 V c ⟨m, h⟩ (ix2 r q))
    (fun b : Fin 4096 => max (argX2 V c (ix2 b P)) 0 * argY2 V c (ix2 b Q))
    (fun m h hm => (congrFun (sc2_first V c ⟨m, h⟩ hm) (ix2 p q)).trans
      ((k2_pay2_apply _ _ _ p q).trans (congrArg (· + _) (k2_pay1_apply p q))))
    (fun m h hm => (congrFun (sc2_next V c ⟨m + 1, h⟩ hm) (ix2 p q)).trans (k2_pay2_apply _ _ _ p q))
    t.val t.isLt h3
    (fun k m h hm hd => Finset.sum_congr rfl fun r _ => congrArg₂ (fun x y : EReal => max x 0 * y)
      (iblk2_0_apply V c ⟨m, h⟩ r p ⟨k.val * 1024 + r.val, lt_block k r⟩ P
        (by show k.val * 1024 + r.val = m % 4 * 1024 + r.val; omega) (by show P.val = m / 16 * 512 + p.val; omega))
      (iblk2_1_apply V c ⟨m, h⟩ r q ⟨k.val * 1024 + r.val, lt_block k r⟩ Q
        (by show k.val * 1024 + r.val = m % 4 * 1024 + r.val; omega) (by show Q.val = m / 4 % 4 * 512 + q.val; omega)))

abbrev outE2 (c : Dev nD) : Spec.Mat 2048 2048 := Spec.eNew (argE2 V c) (Spec.mmT (Spec.relu (argX2 V c)) (argY2 V c))
abbrev outH2 (c : Dev nD) : Spec.Mat 2048 2048 := Spec.hebNew (argH2 V c) (outE2 V c) (argD2 V c (ix2 (0 : Fin 1) (0 : Fin 1)))

theorem after2_5_apply (c : Dev nD) (t : Fin cfg2.N) (h3 : t.val % 4 = 3) (p q : Fin 512) (P Q : Fin 2048)
    (hP : P.val = t.val / 16 * 512 + p.val) (hQ : Q.val = t.val / 4 % 4 * 512 + q.val) :
    k2_pay3 (iblk2 V c 2 t) (sc2 V c t.val t.isLt) (ix2 p q) = outE2 V c (ix2 P Q) := by
  rw [k2_pay3_apply, iblk2_2_apply V c t p q P Q hP hQ, sc2_flush_apply V c t h3 p q P Q hP hQ]
  rfl

theorem after2_6_apply (c : Dev nD) (t : Fin cfg2.N) (h3 : t.val % 4 = 3) (p q : Fin 512) (P Q : Fin 2048)
    (hP : P.val = t.val / 16 * 512 + p.val) (hQ : Q.val = t.val / 4 % 4 * 512 + q.val) :
    k2_pay4 (iblk2 V c 2 t) (sc2 V c t.val t.isLt) (iblk2 V c 3 t) (iblk2 V c 4 t) (ix2 p q) = outH2 V c (ix2 P Q) := by
  rw [k2_pay4_apply, iblk2_2_apply V c t p q P Q hP hQ, sc2_flush_apply V c t h3 p q P Q hP hQ, iblk2_3_apply V c t p q P Q hP hQ,
    iblk2_4_apply V c t]
  rfl

theorem flushed2_5_eq (c : Dev nD) (t : Fin cfg2.N) (hf : (cfg2.win 5).flush t = true) :
    (dat2 V c).flushed 5 t = ((cfg2.win 5).blk t).view.read (Elt Ideal) (outE2 V c) := by
  obtain ⟨-, -, -, -, e0, e1, -⟩ := idx_facts2 t
  show (cfg2.win 5).cut (grid2.coords t) ((dat2 V c).after 5 t) = _
  rw [after2_5]
  funext j
  rw [View.read_apply]
  exact block_eq_of_apply (k2_pay3 (iblk2 V c 2 t) (sc2 V c t.val t.isLt)) (outE2 V c) ((cfg2.win 5).blk t).view.emb
    (t.val / 16 * 512) (t.val / 4 % 4 * 512)
    (fun j => by show win2_2.index t (0 : Fin 2) * 512 + 1 * (j 0).val = _; omega)
    (fun j => by show win2_2.index t (1 : Fin 2) * 512 + 1 * (j 1).val = _; omega)
    (after2_5_apply V c t ((flush2_5 t).mp hf)) j

theorem flushed2_6_eq (c : Dev nD) (t : Fin cfg2.N) (hf : (cfg2.win 6).flush t = true) :
    (dat2 V c).flushed 6 t = ((cfg2.win 6).blk t).view.read (Elt Ideal) (outH2 V c) := by
  obtain ⟨-, -, -, -, e0, e1, -⟩ := idx_facts2 t
  show (cfg2.win 6).cut (grid2.coords t) ((dat2 V c).after 6 t) = _
  rw [after2_6]
  funext j
  rw [View.read_apply]
  exact block_eq_of_apply (k2_pay4 (iblk2 V c 2 t) (sc2 V c t.val t.isLt) (iblk2 V c 3 t) (iblk2 V c 4 t)) (outH2 V c)
    ((cfg2.win 6).blk t).view.emb (t.val / 16 * 512) (t.val / 4 % 4 * 512)
    (fun j => by show win2_2.index t (0 : Fin 2) * 512 + 1 * (j 0).val = _; omega)
    (fun j => by show win2_2.index t (1 : Fin 2) * 512 + 1 * (j 1).val = _; omega)
    (after2_6_apply V c t ((flush2_6 t).mp hf)) j
end

/-- Every index (P, Q) lies in the block, the same for both outputs, of the last point of the run for block row P / 512 and block column Q / 512. -/
theorem cover2_5 (i : S2048x2048.Idx) : ∃ t : Fin cfg2.N, (cfg2.win 5).flush t = true ∧ i ∈ ((cfg2.win 5).blk t).view.set := by
  have hi0 : (i 0).val < 2048 := (i 0).isLt
  have hi1 : (i 1).val < 2048 := (i 1).isLt
  obtain ⟨t, ht⟩ : ∃ t : Fin cfg2.N, t.val = ((i 0).val / 512 * 4 + (i 1).val / 512) * 4 + 3 :=
    ⟨⟨((i 0).val / 512 * 4 + (i 1).val / 512) * 4 + 3, by rw [show cfg2.N = 64 from N_2]; omega⟩, rfl⟩
  obtain ⟨-, -, -, -, e0, e1, -⟩ := idx_facts2 t
  refine ⟨t, (flush2_5 t).mpr (by omega), ?_⟩
  show i ∈ ((View.whole main_v15_0).slice (win2_5.rect t)).set
  rw [View.set_slice_whole, Rect.mem_set_unit]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

section
variable (V : (c : Dev nD) → (b : Ref sig .tc) → Buf (Elt Ideal) ((c : Thread nD τ).loc b))

theorem arr2_5 (c : Dev nD) :
    (dat2 (F := Ideal) V c).arrAt 5 cfg2.N = Spec.eNew (V c main_arg5) (Spec.mmT (Spec.relu (V c main_v12_0)) (V c main_v12_1)) :=
  (dat2 V c).arrAt_eq_of_cover 5 (outE2 V c) (flushed2_5_eq V c) cover2_5

theorem arr2_6 (c : Dev nD) :
    (dat2 (F := Ideal) V c).arrAt 6 cfg2.N
      = Spec.hebNew (V c main_arg8) (Spec.eNew (V c main_arg5) (Spec.mmT (Spec.relu (V c main_v12_0)) (V c main_v12_1)))
          (V c main_v12_4 (ix2 (0 : Fin 1) (0 : Fin 1))) :=
  (dat2 V c).arrAt_eq_of_cover 6 (outH2 V c) (flushed2_6_eq V c) cover2_5

end

end Cert.KernelIdeal.Hand

end
-- ==== Proof.KIV3.lean ====
import proofs.«138652_j14508399526340_1_alg».proof.Proof.KIR3Dat
import proofs.«138652_j14508399526340_1_alg».proof.Proof.Spec
import proofs.«138652_j14508399526340_1_alg».proof.Proof.LibRows
import proofs.«138652_j14508399526340_1_alg».proof.Proof.LibUpdate
import Idealize.ShloMosaic.Lib.Pipeline.Value

noncomputable section

namespace Cert.KernelIdeal.Hand

open Cert.KernelIdeal Cert.KernelIdeal.Gen Cert.LibUpdate
open Idealize.ShloMosaic Idealize.ShloMosaic.TcCoe Idealize.ShloMosaic.ValueIdx

theorem k3_pay1_apply (p : Fin 256) (q : Fin 2050) : k3_pay1 (F := Ideal) (ix2 p q) = 0 := by
  unfold k3_pay1
  simp only [shapeCast_self]
  exact Ideal.ofBits_zero_f32

theorem k3_pay2_apply (x0 : Vec Ideal S512x256 .f32) (x1 : Vec Ideal S512x2050 .f32) (acc : Vec Ideal S256x2050 .f32)
    (p : Fin 256) (q : Fin 2050) :
    k3_pay2 x0 x1 acc (ix2 p q) = acc (ix2 p q) + ∑ k : Fin 512, max (x0 (ix2 k p)) 0 * x1 (ix2 k q) := by
  unfold k3_pay2
  simp only [shapeCast_self]
  refine congrArg (acc (ix2 p q) + ·) ((matmul_rows_apply 512 256 2050 none _ _ p q).trans ?_)
  refine Finset.sum_congr rfl fun k _ => ?_
  show max (x0 (ix2 k p)) (Ideal.ofBits .f32 0x00000000#32) * x1 (ix2 k q) = _
  rw [Ideal.ofBits_zero_f32]

theorem k3_pay3_apply (e acc : Vec Ideal S256x2050 .f32) (p : Fin 256) (q : Fin 2050) :
    k3_pay3 e acc (ix2 p q) = Spec.c07 * e (ix2 p q) + Spec.c03 * acc (ix2 p q) := rfl

theorem k3_pay4_apply (e acc h : Vec Ideal S256x2050 .f32) (d : Vec Ideal S1x1 .f32) (p : Fin 256) (q : Fin 2050) :
    k3_pay4 e acc h d (ix2 p q)
      = min Spec.c03 (max Spec.cm03 (h (ix2 p q) + d (ix2 (0 : Fin 1) (0 : Fin 1)) * (Spec.c07 * e (ix2 p q) + Spec.c03 * acc (ix2 p q)))) := by
  unfold k3_pay4
  simp only [extractAt_00]
  rfl

/-- Each window's block index at the grid point t = 8 i + k; windows 3, 5 and 6 have window 2's. -/
theorem idx_facts3 : ∀ t : Fin cfg3.N,
    win3_0.index t (0 : Fin 2) = t.val % 8 ∧ win3_0.index t (1 : Fin 2) = t.val / 8
    ∧ win3_1.index t (0 : Fin 2) = t.val % 8 ∧ win3_1.index t (1 : Fin 2) = 0
    ∧ win3_2.index t (0 : Fin 2) = t.val / 8 ∧ win3_2.index t (1 : Fin 2) = 0
    ∧ win3_4.index t (0 : Fin 2) = 0 ∧ win3_4.index t (1 : Fin 2) = 0 :=
  (by decide +kernel : ∀ t : Fin grid3.N, _)

section
variable (V : (c : Dev nD) → (b : Ref sig .tc) → Buf (Elt Ideal) ((c : Thread nD τ).loc b))

abbrev argX3 (c : Dev nD) : Spec.Mat 4096 2048 := V c main_v12_1
abbrev argY3 (c : Dev nD) : Spec.Mat 4096 2050 := V c main_v12_2
abbrev argE3 (c : Dev nD) : Spec.Mat 2048 2050 := V c main_arg6
abbrev argH3 (c : Dev nD) : Spec.Mat 2048 2050 := V c main_arg9
abbrev argD3 (c : Dev nD) : Spec.Mat 1 1 := V c main_v12_4
abbrev blkX3 (c : Dev nD) (t : Fin cfg3.N) : Vec Ideal S512x256 .f32 := iblk3 V c 0 t
abbrev blkY3 (c : Dev nD) (t : Fin cfg3.N) : Vec Ideal S512x2050 .f32 := iblk3 V c 1 t

theorem iblk3_0_apply (c : Dev nD) (t : Fin cfg3.N) (r : Fin 512) (p : Fin 256) (R : Fin 4096) (P : Fin 2048)
    (hR : R.val = t.val % 8 * 512 + r.val) (hP : P.val = t.val / 8 * 256 + p.val) :
    iblk3 V c 0 t (ix2 r p) = argX3 V c (ix2 R P) := by
  obtain ⟨e0, e1, -⟩ := idx_facts3 t
  unfold iblk3
  rw [View.read_apply]
  exact congrArg (argX3 V c) (Shape.idx_ext₂ (by show win3_0.index t (0 : Fin 2) * 512 + 1 * r.val = R.val; omega)
    (by show win3_0.index t (1 : Fin 2) * 256 + 1 * p.val = P.val; omega))

theorem iblk3_1_apply (c : Dev nD) (t : Fin cfg3.N) (r : Fin 512) (q : Fin 2050) (R : Fin 4096) (Q : Fin 2050)
    (hR : R.val = t.val % 8 * 512 + r.val) (hQ : Q.val = 0 + q.val) :
    iblk3 V c 1 t (ix2 r q) = argY3 V c (ix2 R Q) := by
  obtain ⟨-, -, e0, e1, -⟩ := idx_facts3 t
  unfold iblk3
  rw [View.read_apply]
  exact congrArg (argY3 V c) (Shape.idx_ext₂ (by show win3_1.index t (0 : Fin 2) * 512 + 1 * r.val = R.val; omega)
    (by show win3_1.index t (1 : Fin 2) * 2050 + 1 * q.val = Q.val; omega))

theorem iblk3_2_apply (c : Dev nD) (t : Fin cfg3.N) (p : Fin 256) (q : Fin 2050) (P : Fin 2048) (Q : Fin 2050)
    (hP : P.val = t.val / 8 * 256 + p.val) (hQ : Q.val = 0 + q.val) :
    iblk3 V c 2 t (ix2 p q) = argE3 V c (ix2 P Q) := by
  obtain ⟨-, -, -, -, e0, e1, -⟩ := idx_facts3 t
  unfold iblk3
  rw [View.read_apply]
  exact congrArg (argE3 V c) (Shape.idx_ext₂ (by show win3_2.index t (0 : Fin 2) * 256 + 1 * p.val = P.val; omega)
    (by show win3_2.index t (1 : Fin 2) * 2050 + 1 * q.val = Q.val; omega))

theorem iblk3_3_apply (c : Dev nD) (t : Fin cfg3.N) (p : Fin 256) (q : Fin 2050) (P : Fin 2048) (Q : Fin 2050)
    (hP : P.val = t.val / 8 * 256 + p.val) (hQ : Q.val = 0 + q.val) :
    iblk3 V c 3 t (ix2 p q) = argH3 V c (ix2 P Q) := by
  obtain ⟨-, -, -, -, e0, e1, -⟩ := idx_facts3 t
  unfold iblk3
  rw [View.read_apply]
  exact congrArg (argH3 V c) (Shape.idx_ext₂ (by show win3_2.index t (0 : Fin 2) * 256 + 1 * p.val = P.val; omega)
    (by show win3_2.index t (1 : Fin 2) * 2050 + 1 * q.val = Q.val; omega))

theorem iblk3_4_apply (c : Dev nD) (t : Fin cfg3.N) :
    iblk3 V c 4 t (ix2 (0 : Fin 1) (0 : Fin 1)) = argD3 V c (ix2 (0 : Fin 1) (0 : Fin 1)) := by
  obtain ⟨-, -, -, -, -, -, e0, e1⟩ := idx_facts3 t
  unfold iblk3
  rw [View.read_apply]
  exact congrArg (argD3 V c) (Shape.idx_ext₂ (by show win3_4.index t (0 : Fin 2) * 1 + 1 * 0 = 0; omega)
    (by show win3_4.index t (1 : Fin 2) * 1 + 1 * 0 = 0; omega))

/-- At the last point of a run (k = 7) the running sum is, at (p, q), entry (P, Q) of max(x, 0)ᵀ · y: eight runs of 512 rows make the batch. -/
theorem sc3_flush_apply (c : Dev nD) (t : Fin cfg3.N) (h7 : t.val % 8 = 7) (p : Fin 256) (q : Fin 2050) (P : Fin 2048) (Q : Fin 2050)
    (hP : P.val = t.val / 8 * 256 + p.val) (hQ : Q.val = 0 + q.val) :
    sc3 V c t.val t.isLt (ix2 p q) = Spec.mmT (Spec.relu (argX3 V c)) (argY3 V c) (ix2 P Q) :=
  run_total 7 512 (fun m h => sc3 V c m h (ix2 p q))
    (fun m h => ∑ r : Fin 512, max (blkX3 V c ⟨m, h⟩ (ix2 r p)) 0 * blkY3 V c ⟨m, h⟩ (ix2 r q))
    (fun b : Fin 4096 => max (argX3 V c (ix2 b P)) 0 * argY3 V c (ix2 b Q))
    (fun m h hm => (congrFun (sc3_first V c ⟨m, h⟩ hm) (ix2 p q)).trans
      ((k3_pay2_apply _ _ _ p q).trans (congrArg (· + _) (k3_pay1_apply p q))))
    (fun m h hm => (congrFun (sc3_next V c ⟨m + 1, h⟩ hm) (ix2 p q)).trans (k3_pay2_apply _ _ _ p q))
    t.val t.isLt h7
    (fun k m h hm hd => Finset.sum_congr rfl fun r _ => congrArg₂ (fun x y : EReal => max x 0 * y)
      (iblk3_0_apply V c ⟨m, h⟩ r p ⟨k.val * 512 + r.val, lt_block k r⟩ P
        (by show k.val * 512 + r.val = m % 8 * 512 + r.val; omega) (by show P.val = m / 8 * 256 + p.val; omega))
      (iblk3_1_apply V c ⟨m, h⟩ r q ⟨k.val * 512 + r.val, lt_block k r⟩ Q
        (by show k.val * 512 + r.val = m % 8 * 512 + r.val; omega) hQ))

abbrev outE3 (c : Dev nD) : Spec.Mat 2048 2050 := Spec.eNew (argE3 V c) (Spec.mmT (Spec.relu (argX3 V c)) (argY3 V c))
abbrev outH3 (c : Dev nD) : Spec.Mat 2048 2050 := Spec.hebNew (argH3 V c) (outE3 V c) (argD3 V c (ix2 (0 : Fin 1) (0 : Fin 1)))

theorem after3_5_apply (c : Dev nD) (t : Fin cfg3.N) (h7 : t.val % 8 = 7) (p : Fin 256) (q : Fin 2050) (P : Fin 2048) (Q : Fin 2050)
    (hP : P.val = t.val / 8 * 256 + p.val) (hQ : Q.val = 0 + q.val) :
    k3_pay3 (iblk3 V c 2 t) (sc3 V c t.val t.isLt) (ix2 p q) = outE3 V c (ix2 P Q) := by
  rw [k3_pay3_apply, iblk3_2_apply V c t p q P Q hP hQ, sc3_flush_apply V c t h7 p q P Q hP hQ]
  rfl

theorem after3_6_apply (c : Dev nD) (t : Fin cfg3.N) (h7 : t.val % 8 = 7) (p : Fin 256) (q : Fin 2050) (P : Fin 2048) (Q : Fin 2050)
    (hP : P.val = t.val / 8 * 256 + p.val) (hQ : Q.val = 0 + q.val) :
    k3_pay4 (iblk3 V c 2 t) (sc3 V c t.val t.isLt) (iblk3 V c 3 t) (iblk3 V c 4 t) (ix2 p q) = outH3 V c (ix2 P Q) := by
  rw [k3_pay4_apply, iblk3_2_apply V c t p q P Q hP hQ, sc3_flush_apply V c t h7 p q P Q hP hQ, iblk3_3_apply V c t p q P Q hP hQ,
    iblk3_4_apply V c t]
  rfl

theorem flushed3_5_eq (c : Dev nD) (t : Fin cfg3.N) (hf : (cfg3.win 5).flush t = true) :
    (dat3 V c).flushed 5 t = ((cfg3.win 5).blk t).view.read (Elt Ideal) (outE3 V c) := by
  obtain ⟨-, -, -, -, e0, e1, -⟩ := idx_facts3 t
  show (cfg3.win 5).cut (grid3.coords t) ((dat3 V c).after 5 t) = _
  rw [after3_5]
  funext j
  rw [View.read_apply]
  exact block_eq_of_apply (k3_pay3 (iblk3 V c 2 t) (sc3 V c t.val t.isLt)) (outE3 V c) ((cfg3.win 5).blk t).view.emb
    (t.val / 8 * 256) 0
    (fun j => by show win3_2.index t (0 : Fin 2) * 256 + 1 * (j 0).val = _; omega)
    (fun j => by show win3_2.index t (1 : Fin 2) * 2050 + 1 * (j 1).val = _; omega)
    (after3_5_apply V c t ((flush3_5 t).mp hf)) j

theorem flushed3_6_eq (c : Dev nD) (t : Fin cfg3.N) (hf : (cfg3.win 6).flush t = true) :
    (dat3 V c).flushed 6 t = ((cfg3.win 6).blk t).view.read (Elt Ideal) (outH3 V c) := by
  obtain ⟨-, -, -, -, e0, e1, -⟩ := idx_facts3 t
  show (cfg3.win 6).cut (grid3.coords t) ((dat3 V c).after 6 t) = _
  rw [after3_6]
  funext j
  rw [View.read_apply]
  exact block_eq_of_apply (k3_pay4 (iblk3 V c 2 t) (sc3 V c t.val t.isLt) (iblk3 V c 3 t) (iblk3 V c 4 t)) (outH3 V c)
    ((cfg3.win 6).blk t).view.emb (t.val / 8 * 256) 0
    (fun j => by show win3_2.index t (0 : Fin 2) * 256 + 1 * (j 0).val = _; omega)
    (fun j => by show win3_2.index t (1 : Fin 2) * 2050 + 1 * (j 1).val = _; omega)
    (after3_6_apply V c t ((flush3_6 t).mp hf)) j
end

/-- Every index (P, Q) lies in the block, the same for both outputs, of the last point of the run for block row P / 256. -/
theorem cover3_5 (i : S2048x2050.Idx) : ∃ t : Fin cfg3.N, (cfg3.win 5).flush t = true ∧ i ∈ ((cfg3.win 5).blk t).view.set := by
  have hi0 : (i 0).val < 2048 := (i 0).isLt
  have hi1 : (i 1).val < 2050 := (i 1).isLt
  obtain ⟨t, ht⟩ : ∃ t : Fin cfg3.N, t.val = 8 * ((i 0).val / 256) + 7 :=
    ⟨⟨8 * ((i 0).val / 256) + 7, by rw [show cfg3.N = 64 from N_3]; omega⟩, rfl⟩
  obtain ⟨-, -, -, -, e0, e1, -⟩ := idx_facts3 t
  refine ⟨t, (flush3_5 t).mpr (by omega), ?_⟩
  show i ∈ ((View.whole main_v16_0).slice (win3_5.rect t)).set
  rw [View.set_slice_whole, Rect.mem_set_unit]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 2050 ≤ (i 1).val ∧ (i 1).val < win3_2.index t (1 : Fin 2) * 2050 + 2050; omega

section
variable (V : (c : Dev nD) → (b : Ref sig .tc) → Buf (Elt Ideal) ((c : Thread nD τ).loc b))

theorem arr3_5 (c : Dev nD) : (dat3 (F := Ideal) V c).arrAt 5 cfg3.N
    = Spec.eNew (V c main_arg6) (Spec.mmT (Spec.relu (V c main_v12_1)) (V c main_v12_2)) :=
  (dat3 V c).arrAt_eq_of_cover 5 (outE3 V c) (flushed3_5_eq V c) cover3_5

theorem arr3_6 (c : Dev nD) : (dat3 (F := Ideal) V c).arrAt 6 cfg3.N
    = Spec.hebNew (V c main_arg9) (Spec.eNew (V c main_arg6) (Spec.mmT (Spec.relu (V c main_v12_1)) (V c main_v12_2)))
        (V c main_v12_4 (ix2 (0 : Fin 1) (0 : Fin 1))) :=
  (dat3 V c).arrAt_eq_of_cover 6 (outH3 V c) (flushed3_6_eq V c) cover3_5

end

end Cert.KernelIdeal.Hand

end
-- ==== Proof.KIVal.lean ====
import proofs.«138652_j14508399526340_1_alg».proof.Proof.KIRun
import proofs.«138652_j14508399526340_1_alg».proof.Proof.KIV0
import proofs.«138652_j14508399526340_1_alg».proof.Proof.KIV0S
import proofs.«138652_j14508399526340_1_alg».proof.Proof.KIV1
import proofs.«138652_j14508399526340_1_alg».proof.Proof.KIV2
import proofs.«138652_j14508399526340_1_alg».proof.Proof.KIV3
import proofs.«138652_j14508399526340_1_alg».proof.Proof.Spec
import proofs.«138652_j14508399526340_1_alg».proof.Proof.LibRows
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx

section Host
variable {F : FTy → Type} [FloatOps F] (U : Valuation τ sig (Elt F))

theorem h0_v3 : StableHlo.after hostOps0 U (Proc.devRef .tc main_v3)
    = truncf .bf16 (addf (U (Proc.devRef .tc main_arg1)) (mulf (broadcastInDim S2048x2048 ![] bcast_S_S2048x2048 (U (Proc.devRef .tc main_arg10))) (U (Proc.devRef .tc main_arg7)))) bitsLt_bf16_f32 := by
  after_results
theorem h0_v7 : StableHlo.after hostOps0 U (Proc.devRef .tc main_v7)
    = truncf .bf16 (addf (U (Proc.devRef .tc main_arg2)) (mulf (broadcastInDim S2048x2048 ![] bcast_S_S2048x2048 (U (Proc.devRef .tc main_arg10))) (U (Proc.devRef .tc main_arg8)))) bitsLt_bf16_f32 := by
  after_results
theorem h0_v11 : StableHlo.after hostOps0 U (Proc.devRef .tc main_v11)
    = truncf .bf16 (addf (U (Proc.devRef .tc main_arg3)) (mulf (broadcastInDim S2048x2050 ![] bcast_S_S2048x2050 (U (Proc.devRef .tc main_arg10))) (U (Proc.devRef .tc main_arg9)))) bitsLt_bf16_f32 := by
  after_results
theorem h1_v13 : StableHlo.after hostOps1 U (Proc.devRef .tc main_v13)
    = extractStridedSlice S4096x2048 ![0, 0] (U (Proc.devRef .tc main_v12_2)) slices_S4096x2050_S4096x2048_0_0 := by
  after_results
theorem h4_v17 : StableHlo.after hostOps4 U (Proc.devRef .tc main_v17) = shapeCast S_ (U (Proc.devRef .tc main_v12_3)) shapeCasts_S1x1_S_ := by
  after_results; rfl
theorem h4_v18 : StableHlo.after hostOps4 U (Proc.devRef .tc main_v18) = shapeCast S_ (U (Proc.devRef .tc main_v12_4)) shapeCasts_S1x1_S_ := by
  after_results; rfl

end Host

/-- The modulated weights a + w · h, whatever the two dimensions. -/
theorem modW_eq {M N : ℕ} (hb : S_.BroadcastsInDim ⟨2, ![M, N]⟩ ![]) (a h : Spec.Mat M N) (w : Spec.Sca) :
    (truncf (F := Ideal) .bf16 (addf (a : FVec Ideal ⟨2, ![M, N]⟩ .f32) (mulf (broadcastInDim ⟨2, ![M, N]⟩ ![] hb (w : FVec Ideal S_ .f32)) (h : FVec Ideal ⟨2, ![M, N]⟩ .f32))) bitsLt_bf16_f32 : Spec.Mat M N)
      = Spec.modW a h (w ix0) := by
  funext j
  obtain ⟨p, q, rfl⟩ : ∃ (p : Fin M) (q : Fin N), j = ix2 p q := ⟨j 0, j 1, eq_ix2 j⟩
  simp only [Spec.modW, Spec.mk_ix2, truncf, addf, mulf, Ideal.truncf_def, Ideal.addf_def, Ideal.mulf_def]
  rw [Cert.LibRows.bcastScalar_apply]

theorem slice_cols (y : Spec.Mat 4096 2050) :
    (extractStridedSlice S4096x2048 ![0, 0] (y : Vec Ideal S4096x2050 .f32) slices_S4096x2050_S4096x2048_0_0 : Spec.Mat 4096 2048)
      = Spec.takeCols 2048 (by norm_num) y := by
  funext j
  obtain ⟨p, q, rfl⟩ : ∃ (p : Fin 4096) (q : Fin 2048), j = ix2 p q := ⟨j 0, j 1, eq_ix2 j⟩
  simp only [Spec.takeCols, Spec.mk_ix2]
  refine extractStridedSlice_apply _ _ _ (ix2 p q) (ix2 p ⟨q.val, by have := q.isLt; omega⟩) fun a => ?_
  match a with
  | ⟨0, _⟩ => show p.val = 0 + p.val; omega
  | ⟨1, _⟩ => show q.val = 0 + q.val; omega

theorem cast_sca (v : EReal) :
    (shapeCast S_ ((fun _ => v : Spec.Mat 1 1) : Vec Ideal S1x1 .f32) shapeCasts_S1x1_S_ : Spec.Sca) = Spec.sca v := by
  funext j
  refine (shapeCast_apply _ _ j (ix2 (0 : Fin 1) (0 : Fin 1)) ?_).trans rfl
  have h1 : (S_.rowMajor j).val < 1 := lt_of_lt_of_eq (S_.rowMajor j).isLt (by decide)
  rw [Shape.rowMajor_val_two]
  show 0 * _ + 0 = _
  omega

section
variable (V : (c : Dev nD) → (b : Ref sig .tc) → Buf (Elt Ideal) ((c : Thread nD τ).loc b))

theorem arr0_7 (c : Dev nD) : (dat0 (F := Ideal) V c).arrAt 7 cfg0.N = fun _ => Spec.colMeanTanh (Y1 V c) (⟨2048, by norm_num⟩ : Fin 2050) :=
  arr0_7_of V c (Y1 V c) (pay9_blk V c)
theorem arr0_8 (c : Dev nD) : (dat0 (F := Ideal) V c).arrAt 8 cfg0.N = fun _ => Spec.colMeanTanh (Y1 V c) (⟨2047, by norm_num⟩ : Fin 2050) :=
  arr0_8_of V c (Y1 V c) (pay9_blk V c)

end

section Run
variable (m : (ℓ : Loc nD τ sig) → Buf (Elt Ideal) ℓ)

abbrev aX (c : Dev nD) : Spec.Mat 4096 2048 := m ((c : Thread nD τ).loc main_arg0)
abbrev aA1 (c : Dev nD) : Spec.Mat 2048 2048 := m ((c : Thread nD τ).loc main_arg1)
abbrev aA2 (c : Dev nD) : Spec.Mat 2048 2048 := m ((c : Thread nD τ).loc main_arg2)
abbrev aA3 (c : Dev nD) : Spec.Mat 2048 2050 := m ((c : Thread nD τ).loc main_arg3)
abbrev aE1 (c : Dev nD) : Spec.Mat 2048 2048 := m ((c : Thread nD τ).loc main_arg4)
abbrev aE2 (c : Dev nD) : Spec.Mat 2048 2048 := m ((c : Thread nD τ).loc main_arg5)
abbrev aE3 (c : Dev nD) : Spec.Mat 2048 2050 := m ((c : Thread nD τ).loc main_arg6)
abbrev aB1 (c : Dev nD) : Spec.Mat 2048 2048 := m ((c : Thread nD τ).loc main_arg7)
abbrev aB2 (c : Dev nD) : Spec.Mat 2048 2048 := m ((c : Thread nD τ).loc main_arg8)
abbrev aB3 (c : Dev nD) : Spec.Mat 2048 2050 := m ((c : Thread nD τ).loc main_arg9)
abbrev aW (c : Dev nD) : Spec.Sca := m ((c : Thread nD τ).loc main_arg10)

theorem V1_arg (c : Dev nD) (b : Ref sig .tc) (h : b ∉ hostOps0_W) : V1 m c b = m ((c : Thread nD τ).loc b) := (W1_of m c b h).trans rfl
theorem V1_v3 (c : Dev nD) : (V1 m c main_v3 : Spec.Mat 2048 2048) = Spec.modW (aA1 m c) (aB1 m c) (aW m c ix0) :=
  (h0_v3 (W0 m c)).trans (modW_eq _ _ _ _)
theorem V1_v7 (c : Dev nD) : (V1 m c main_v7 : Spec.Mat 2048 2048) = Spec.modW (aA2 m c) (aB2 m c) (aW m c ix0) :=
  (h0_v7 (W0 m c)).trans (modW_eq _ _ _ _)
theorem V1_v11 (c : Dev nD) : (V1 m c main_v11 : Spec.Mat 2048 2050) = Spec.modW (aA3 m c) (aB3 m c) (aW m c ix0) :=
  (h0_v11 (W0 m c)).trans (modW_eq _ _ _ _)

theorem Y1_V1 (c : Dev nD) : Y1 (V1 m) c = Spec.y1 (aX m c) (aA1 m c) (aA2 m c) (aA3 m c) (aB1 m c) (aB2 m c) (aB3 m c) (aW m c) := by
  unfold Y1; rw [V1_arg m c main_arg0 (by decide), V1_v3, V1_v7, V1_v11]; rfl

theorem W2_h0x (c : Dev nD) : (W2 m c (Proc.devRef .tc main_v12_0) : Spec.Mat 4096 2048) = Spec.h0x (aX m c) (aA1 m c) (aB1 m c) (aW m c) :=
  (W2_arr m c 4).trans ((arr0_4 (V1 m) c).trans (by rw [V1_arg m c main_arg0 (by decide), V1_v3]; rfl))
theorem W2_h10 (c : Dev nD) : (W2 m c (Proc.devRef .tc main_v12_1) : Spec.Mat 4096 2048) = Spec.h10 (aX m c) (aA1 m c) (aA2 m c) (aB1 m c) (aB2 m c) (aW m c) :=
  (W2_arr m c 5).trans ((arr0_5 (V1 m) c).trans (by rw [V1_arg m c main_arg0 (by decide), V1_v3, V1_v7]; rfl))
theorem W2_y1 (c : Dev nD) : (W2 m c (Proc.devRef .tc main_v12_2) : Spec.Mat 4096 2050) = Spec.y1 (aX m c) (aA1 m c) (aA2 m c) (aA3 m c) (aB1 m c) (aB2 m c) (aB3 m c) (aW m c) :=
  (W2_arr m c 6).trans ((arr0_6 (V1 m) c).trans (Y1_V1 m c))
theorem W2_wnew (c : Dev nD) : (W2 m c (Proc.devRef .tc main_v12_3) : Spec.Mat 1 1) = fun _ => Spec.wNew (aX m c) (aA1 m c) (aA2 m c) (aA3 m c) (aB1 m c) (aB2 m c) (aB3 m c) (aW m c) :=
  (W2_arr m c 7).trans ((arr0_7 (V1 m) c).trans (by rw [Y1_V1]; rfl))
theorem W2_dopa (c : Dev nD) : (W2 m c (Proc.devRef .tc main_v12_4) : Spec.Mat 1 1) = fun _ => Spec.dopa (aX m c) (aA1 m c) (aA2 m c) (aA3 m c) (aB1 m c) (aB2 m c) (aB3 m c) (aW m c) :=
  (W2_arr m c 8).trans ((arr0_8 (V1 m) c).trans (by rw [Y1_V1]; rfl))

/-- What neither the first host stretch nor region 0 writes is, after region 0, what the run began with. -/
theorem W2_arg (c : Dev nD) (b : Ref sig .tc) (o0 : ∀ w : Fin cfg0.W, (cfg0.win w).isOut = true → Pipeline.arrRef spec0 w ≠ b := by decide)
    (h0 : b ∉ hostOps0_W := by decide) : W2 m c (Proc.devRef .tc b) = m ((c : Thread nD τ).loc b) :=
  (W2_keep m c b o0).trans ((W1_of m c b h0).trans rfl)

/-- What nothing after region 0 writes is still what region 0 left. -/
theorem V3_W2 (c : Dev nD) (b : Ref sig .tc) (h1 : b ∉ hostOps1_W := by decide) : V3 m c b = W2 m c (Proc.devRef .tc b) := W3_of m c b h1
theorem V4_W2 (c : Dev nD) (b : Ref sig .tc) (o1 : ∀ w : Fin cfg1.W, (cfg1.win w).isOut = true → Pipeline.arrRef spec1 w ≠ b := by decide)
    (h1 : b ∉ hostOps1_W := by decide) : V4 m c b = W2 m c (Proc.devRef .tc b) := (W4_keep m c b o1).trans (V3_W2 m c b h1)
theorem V5_W2 (c : Dev nD) (b : Ref sig .tc) (o2 : ∀ w : Fin cfg2.W, (cfg2.win w).isOut = true → Pipeline.arrRef spec2 w ≠ b := by decide)
    (o1 : ∀ w : Fin cfg1.W, (cfg1.win w).isOut = true → Pipeline.arrRef spec1 w ≠ b := by decide) (h1 : b ∉ hostOps1_W := by decide) :
    V5 m c b = W2 m c (Proc.devRef .tc b) := (W5_keep m c b o2).trans (V4_W2 m c b o1 h1)

theorem W4_e1n (c : Dev nD) : (W4 m c (Proc.devRef .tc main_v14_0) : Spec.Mat 2048 2048) = Spec.e1n (aX m c) (aA1 m c) (aE1 m c) (aB1 m c) (aW m c) :=
  (W4_arr m c 5).trans ((arr1_5 (V3 m) c).trans (by
    rw [V3_W2 m c main_arg4, W2_arg m c main_arg4, V3_W2 m c main_arg0, W2_arg m c main_arg0, V3_W2 m c main_v12_0, W2_h0x]; rfl))
theorem W4_heb1n (c : Dev nD) : (W4 m c (Proc.devRef .tc main_v14_1) : Spec.Mat 2048 2048)
    = Spec.heb1n (aX m c) (aA1 m c) (aA2 m c) (aA3 m c) (aE1 m c) (aB1 m c) (aB2 m c) (aB3 m c) (aW m c) :=
  (W4_arr m c 6).trans ((arr1_6 (V3 m) c).trans (by
    rw [V3_W2 m c main_arg4, W2_arg m c main_arg4, V3_W2 m c main_arg0, W2_arg m c main_arg0,
      V3_W2 m c main_arg7, W2_arg m c main_arg7, V3_W2 m c main_v12_0, W2_h0x, V3_W2 m c main_v12_4, W2_dopa]; rfl))

theorem W5_e2n (c : Dev nD) : (W5 m c (Proc.devRef .tc main_v15_0) : Spec.Mat 2048 2048) = Spec.e2n (aX m c) (aA1 m c) (aA2 m c) (aE2 m c) (aB1 m c) (aB2 m c) (aW m c) :=
  (W5_arr m c 5).trans ((arr2_5 (V4 m) c).trans (by
    rw [V4_W2 m c main_arg5, W2_arg m c main_arg5, V4_W2 m c main_v12_0, W2_h0x, V4_W2 m c main_v12_1, W2_h10]; rfl))
theorem W5_heb2n (c : Dev nD) : (W5 m c (Proc.devRef .tc main_v15_1) : Spec.Mat 2048 2048)
    = Spec.heb2n (aX m c) (aA1 m c) (aA2 m c) (aA3 m c) (aE2 m c) (aB1 m c) (aB2 m c) (aB3 m c) (aW m c) :=
  (W5_arr m c 6).trans ((arr2_6 (V4 m) c).trans (by
    rw [V4_W2 m c main_arg5, W2_arg m c main_arg5, V4_W2 m c main_arg8, W2_arg m c main_arg8,
      V4_W2 m c main_v12_0, W2_h0x, V4_W2 m c main_v12_1, W2_h10, V4_W2 m c main_v12_4, W2_dopa]; rfl))

theorem W6_e3n (c : Dev nD) : (W6 m c (Proc.devRef .tc main_v16_0) : Spec.Mat 2048 2050)
    = Spec.e3n (aX m c) (aA1 m c) (aA2 m c) (aA3 m c) (aE3 m c) (aB1 m c) (aB2 m c) (aB3 m c) (aW m c) :=
  (W6_arr m c 5).trans ((arr3_5 (V5 m) c).trans (by
    rw [V5_W2 m c main_arg6, W2_arg m c main_arg6, V5_W2 m c main_v12_1, W2_h10, V5_W2 m c main_v12_2, W2_y1]; rfl))
theorem W6_heb3n (c : Dev nD) : (W6 m c (Proc.devRef .tc main_v16_1) : Spec.Mat 2048 2050)
    = Spec.heb3n (aX m c) (aA1 m c) (aA2 m c) (aA3 m c) (aE3 m c) (aB1 m c) (aB2 m c) (aB3 m c) (aW m c) :=
  (W6_arr m c 6).trans ((arr3_6 (V5 m) c).trans (by
    rw [V5_W2 m c main_arg6, W2_arg m c main_arg6, V5_W2 m c main_arg9, W2_arg m c main_arg9,
      V5_W2 m c main_v12_1, W2_h10, V5_W2 m c main_v12_2, W2_y1, V5_W2 m c main_v12_4, W2_dopa]; rfl))

/-- What nothing after region k writes is, at the end, what region k left. -/
theorem W7_W5 (c : Dev nD) (b : Ref sig .tc) (h4 : b ∉ hostOps4_W := by decide)
    (o3 : ∀ w : Fin cfg3.W, (cfg3.win w).isOut = true → Pipeline.arrRef spec3 w ≠ b := by decide) :
    W7 m c (Proc.devRef .tc b) = W5 m c (Proc.devRef .tc b) := (W7_of m c b h4).trans (W6_keep m c b o3)
theorem W7_W4 (c : Dev nD) (b : Ref sig .tc) (h4 : b ∉ hostOps4_W := by decide)
    (o3 : ∀ w : Fin cfg3.W, (cfg3.win w).isOut = true → Pipeline.arrRef spec3 w ≠ b := by decide)
    (o2 : ∀ w : Fin cfg2.W, (cfg2.win w).isOut = true → Pipeline.arrRef spec2 w ≠ b := by decide) :
    W7 m c (Proc.devRef .tc b) = W4 m c (Proc.devRef .tc b) := (W7_W5 m c b h4 o3).trans (W5_keep m c b o2)

theorem W7_y (c : Dev nD) : (W7 m c (Proc.devRef .tc main_v13) : Spec.Mat 4096 2048) = Spec.yOut (aX m c) (aA1 m c) (aA2 m c) (aA3 m c) (aB1 m c) (aB2 m c) (aB3 m c) (aW m c) :=
  (W7_W4 m c main_v13).trans <| (W4_keep m c main_v13 (by decide)).trans <| (h1_v13 (W2 m c)).trans <| by rw [W2_y1]; exact slice_cols _
theorem W7_wnew (c : Dev nD) : (W7 m c (Proc.devRef .tc main_v17) : Spec.Sca) = Spec.sca (Spec.wNew (aX m c) (aA1 m c) (aA2 m c) (aA3 m c) (aB1 m c) (aB2 m c) (aB3 m c) (aW m c)) :=
  (h4_v17 (W6 m c)).trans <| by
    rw [show W6 m c (Proc.devRef .tc main_v12_3) = (fun _ => Spec.wNew (aX m c) (aA1 m c) (aA2 m c) (aA3 m c) (aB1 m c) (aB2 m c) (aB3 m c) (aW m c) : Spec.Mat 1 1) from
      (W6_keep m c main_v12_3 (by decide)).trans ((V5_W2 m c main_v12_3).trans (W2_wnew m c))]
    exact cast_sca _
theorem W7_dopa (c : Dev nD) : (W7 m c (Proc.devRef .tc main_v18) : Spec.Sca) = Spec.sca (Spec.dopa (aX m c) (aA1 m c) (aA2 m c) (aA3 m c) (aB1 m c) (aB2 m c) (aB3 m c) (aW m c)) :=
  (h4_v18 (W6 m c)).trans <| by
    rw [show W6 m c (Proc.devRef .tc main_v12_4) = (fun _ => Spec.dopa (aX m c) (aA1 m c) (aA2 m c) (aA3 m c) (aB1 m c) (aB2 m c) (aB3 m c) (aW m c) : Spec.Mat 1 1) from
      (W6_keep m c main_v12_4 (by decide)).trans ((V5_W2 m c main_v12_4).trans (W2_dopa m c))]
    exact cast_sca _
theorem W7_arg (c : Dev nD) (b : Ref sig .tc) (h0 : b ∉ hostOps0_W := by decide) (h1 : b ∉ hostOps1_W := by decide) (h4 : b ∉ hostOps4_W := by decide)
    (o0 : ∀ w : Fin cfg0.W, (cfg0.win w).isOut = true → Pipeline.arrRef spec0 w ≠ b := by decide)
    (o1 : ∀ w : Fin cfg1.W, (cfg1.win w).isOut = true → Pipeline.arrRef spec1 w ≠ b := by decide)
    (o2 : ∀ w : Fin cfg2.W, (cfg2.win w).isOut = true → Pipeline.arrRef spec2 w ≠ b := by decide)
    (o3 : ∀ w : Fin cfg3.W, (cfg3.win w).isOut = true → Pipeline.arrRef spec3 w ≠ b := by decide) :
    W7 m c (Proc.devRef .tc b) = m ((c : Thread nD τ).loc b) := W7_launch m c b h0 h1 h4 o0 o1 o2 o3

theorem run_spec (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Spec.yOut (aX m c) (aA1 m c) (aA2 m c) (aA3 m c) (aB1 m c) (aB2 m c) (aB3 m c) (aW m c)
      ∧ r.2.mem ((c.tc : Thread nD τ).loc main_v17) = Spec.sca (Spec.wNew (aX m c) (aA1 m c) (aA2 m c) (aA3 m c) (aB1 m c) (aB2 m c) (aB3 m c) (aW m c))
      ∧ r.2.mem ((c.tc : Thread nD τ).loc main_v18) = Spec.sca (Spec.dopa (aX m c) (aA1 m c) (aA2 m c) (aA3 m c) (aB1 m c) (aB2 m c) (aB3 m c) (aW m c))
      ∧ r.2.mem ((c.tc : Thread nD τ).loc main_v14_0) = Spec.e1n (aX m c) (aA1 m c) (aE1 m c) (aB1 m c) (aW m c)
      ∧ r.2.mem ((c.tc : Thread nD τ).loc main_v15_0) = Spec.e2n (aX m c) (aA1 m c) (aA2 m c) (aE2 m c) (aB1 m c) (aB2 m c) (aW m c)
      ∧ r.2.mem ((c.tc : Thread nD τ).loc main_v16_0) = Spec.e3n (aX m c) (aA1 m c) (aA2 m c) (aA3 m c) (aE3 m c) (aB1 m c) (aB2 m c) (aB3 m c) (aW m c)
      ∧ r.2.mem ((c.tc : Thread nD τ).loc main_v14_1) = Spec.heb1n (aX m c) (aA1 m c) (aA2 m c) (aA3 m c) (aE1 m c) (aB1 m c) (aB2 m c) (aB3 m c) (aW m c)
      ∧ r.2.mem ((c.tc : Thread nD τ).loc main_v15_1) = Spec.heb2n (aX m c) (aA1 m c) (aA2 m c) (aA3 m c) (aE2 m c) (aB1 m c) (aB2 m c) (aB3 m c) (aW m c)
      ∧ r.2.mem ((c.tc : Thread nD τ).loc main_v16_1) = Spec.heb3n (aX m c) (aA1 m c) (aA2 m c) (aA3 m c) (aE3 m c) (aB1 m c) (aB2 m c) (aB3 m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
    (h c _ (mem_uc main_v13 (by decide))).trans (W7_y m c),
    (h c _ (mem_uc main_v17 (by decide))).trans (W7_wnew m c),
    (h c _ (mem_uc main_v18 (by decide))).trans (W7_dopa m c),
    (h c _ (mem_uc main_v14_0 (by decide))).trans ((W7_W4 m c main_v14_0).trans (W4_e1n m c)),
    (h c _ (mem_uc main_v15_0 (by decide))).trans ((W7_W5 m c main_v15_0).trans (W5_e2n m c)),
    (h c _ (mem_uc main_v16_0 (by decide))).trans ((W7_of m c main_v16_0 (by decide)).trans (W6_e3n m c)),
    (h c _ (mem_uc main_v14_1 (by decide))).trans ((W7_W4 m c main_v14_1).trans (W4_heb1n m c)),
    (h c _ (mem_uc main_v15_1 (by decide))).trans ((W7_W5 m c main_v15_1).trans (W5_heb2n m c)),
    (h c _ (mem_uc main_v16_1 (by decide))).trans ((W7_of m c main_v16_1 (by decide)).trans (W6_heb3n m c)),
    (h c _ (mem_uc main_arg0 (by decide))).trans (W7_arg m c main_arg0),
    (h c _ (mem_uc main_arg1 (by decide))).trans (W7_arg m c main_arg1),
    (h c _ (mem_uc main_arg2 (by decide))).trans (W7_arg m c main_arg2),
    (h c _ (mem_uc main_arg3 (by decide))).trans (W7_arg m c main_arg3),
    (h c _ (mem_uc main_arg4 (by decide))).trans (W7_arg m c main_arg4),
    (h c _ (mem_uc main_arg5 (by decide))).trans (W7_arg m c main_arg5),
    (h c _ (mem_uc main_arg6 (by decide))).trans (W7_arg m c main_arg6),
    (h c _ (mem_uc main_arg7 (by decide))).trans (W7_arg m c main_arg7),
    (h c _ (mem_uc main_arg8 (by decide))).trans (W7_arg m c main_arg8),
    (h c _ (mem_uc main_arg9 (by decide))).trans (W7_arg m c main_arg9),
    (h c _ (mem_uc main_arg10 (by decide))).trans (W7_arg m c main_arg10)⟩)
    (run_all (F := Ideal) m ρ)

end Run

end Cert.KernelIdeal.Hand

end
-- ==== Proof.RefValue.lean ====
import proofs.«138652_j14508399526340_1_alg».proof.Proof.Gen.ReferenceIdeal.Run
import proofs.«138652_j14508399526340_1_alg».proof.Proof.Gen.ReferenceIdeal.Read
import proofs.«138652_j14508399526340_1_alg».proof.Proof.Spec
import proofs.«138652_j14508399526340_1_alg».proof.Proof.LibRows

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

section SpecAt
variable {B M K N : ℕ}

theorem mm_at (l : Spec.Mat M K) (r : Spec.Mat K N) (p : Fin M) (q : Fin N) :
    Spec.mm l r (ix2 p q) = ∑ k : Fin K, l (ix2 p k) * r (ix2 k q) := rfl

theorem relu_at (x : Spec.Mat M N) (p : Fin M) (q : Fin N) : Spec.relu x (ix2 p q) = max (x (ix2 p q)) 0 := rfl

theorem mmT_at (pre : Spec.Mat B M) (post : Spec.Mat B N) (i : Fin M) (j : Fin N) :
    Spec.mmT pre post (ix2 i j) = ∑ b : Fin B, pre (ix2 b i) * post (ix2 b j) := rfl

theorem takeCols_at (n : ℕ) (hn : n ≤ N) (y : Spec.Mat M N) (p : Fin M) (q : Fin n) :
    Spec.takeCols n hn y (ix2 p q) = y (ix2 p ⟨q.val, lt_of_lt_of_le q.isLt hn⟩) := rfl

theorem sum_col (f : (⟨2, ![M, 1]⟩ : Shape).Idx → EReal) : ∑ j, f j = ∑ p : Fin M, f (ix2 p (0 : Fin 1)) := by
  rw [sum_idx2]
  exact Finset.sum_congr rfl fun p _ => Fin.sum_univ_one fun b => f (ix2 p b)

/-- Two functions of a rank-2 index that agree at every (p, q) are equal. -/
theorem ext2 {α : Type*} {f g : (⟨2, ![M, N]⟩ : Shape).Idx → α} (h : ∀ p q, f (ix2 p q) = g (ix2 p q)) : f = g :=
  funext fun i => (eq_ix2 i) ▸ h (i 0) (i 1)

end SpecAt

section Forward
variable (x : Spec.Mat 4096 2048) (a1 a2 : Spec.Mat 2048 2048) (a3 : Spec.Mat 2048 2050)
  (b1 b2 : Spec.Mat 2048 2048) (b3 : Spec.Mat 2048 2050) (w : Spec.Sca)

theorem w1_eq : val_main_v2 (F := Ideal) a1 b1 w = Spec.modW a1 b1 (w ix0) := by
  refine ext2 fun p q => ?_
  rw [val_main_v2_apply, val_main_v1_apply, val_main_v0_apply] <;> rfl

theorem w2_eq : val_main_v7 (F := Ideal) a2 b2 w = Spec.modW a2 b2 (w ix0) := by
  refine ext2 fun p q => ?_
  rw [val_main_v7_apply, val_main_v6_apply, val_main_v5_apply] <;> rfl

theorem w3_eq : val_main_v12 (F := Ideal) a3 b3 w = Spec.modW a3 b3 (w ix0) := by
  refine ext2 fun p q => ?_
  rw [val_main_v12_apply, val_main_v11_apply, val_main_v10_apply] <;> rfl

theorem h0x_eq : val_main_v3 (F := Ideal) x a1 b1 w = Spec.h0x x a1 b1 w := by
  refine ext2 fun p q => ?_
  rw [val_main_v3_apply, w1_eq, Spec.h0x, mm_at]
  exact Finset.sum_congr rfl fun k _ => by rw [eq_ix2 (lidx_main_v3 _ k), eq_ix2 (ridx_main_v3 _ k)] <;> rfl

theorem r0_eq : val_main_v4 (F := Ideal) x a1 b1 w = Spec.relu (Spec.h0x x a1 b1 w) := by
  refine ext2 fun p q => ?_
  rw [val_main_v4_apply, h0x_eq, val_main_call0_v0_apply, val_main_call0_cst_apply, relu_at]
  simp only [Ideal.maximumf_def, Ideal.ofBits_def, Ideal.ofBits_zero_f32]

theorem h10_eq : val_main_v8 (F := Ideal) x a1 a2 b1 b2 w = Spec.h10 x a1 a2 b1 b2 w := by
  refine ext2 fun p q => ?_
  rw [val_main_v8_apply, r0_eq, w2_eq, Spec.h10, mm_at]
  exact Finset.sum_congr rfl fun k _ => by rw [eq_ix2 (lidx_main_v8 _ k), eq_ix2 (ridx_main_v8 _ k)] <;> rfl

theorem r1_eq : val_main_v9 (F := Ideal) x a1 a2 b1 b2 w = Spec.relu (Spec.h10 x a1 a2 b1 b2 w) := by
  refine ext2 fun p q => ?_
  rw [val_main_v9_apply, h10_eq, val_main_call1_v0_apply, val_main_call1_cst_apply, relu_at]
  simp only [Ideal.maximumf_def, Ideal.ofBits_def, Ideal.ofBits_zero_f32]

theorem y1_eq : val_main_v13 (F := Ideal) x a1 a2 a3 b1 b2 b3 w = Spec.y1 x a1 a2 a3 b1 b2 b3 w := by
  refine ext2 fun p q => ?_
  rw [val_main_v13_apply, r1_eq, w3_eq, Spec.y1, mm_at]
  exact Finset.sum_congr rfl fun k _ => by rw [eq_ix2 (lidx_main_v13 _ k), eq_ix2 (ridx_main_v13 _ k)] <;> rfl

theorem yOut_eq : val_main_v55 (F := Ideal) x a1 a2 a3 b1 b2 b3 w = Spec.yOut x a1 a2 a3 b1 b2 b3 w := by
  refine ext2 fun p q => ?_
  rw [val_main_v55_apply, y1_eq, show idx_main_v55 (ix2 p q) = ix2 p (⟨q.val, lt_of_lt_of_le q.isLt (by norm_num)⟩ : Fin 2050) from Shape.idx_ext₂ rfl rfl, Spec.yOut, takeCols_at]

theorem tanhCol_v15 (p : Fin 4096) :
    val_main_v15 (F := Ideal) x a1 a2 a3 b1 b2 b3 w (ix2 p (0 : Fin 1))
      = Ideal.tanh (Spec.y1 x a1 a2 a3 b1 b2 b3 w (ix2 p (⟨2048, by norm_num⟩ : Fin 2050))) := by
  rw [val_main_v15_apply, val_main_v14_apply, y1_eq, show idx_main_v14 (ix2 p (0 : Fin 1)) = ix2 p (⟨2048, by norm_num⟩ : Fin 2050) from Shape.idx_ext₂ rfl rfl, Ideal.hostUnary_tanh_def]

theorem tanhCol_v19 (p : Fin 4096) :
    val_main_v19 (F := Ideal) x a1 a2 a3 b1 b2 b3 w (ix2 p (0 : Fin 1))
      = Ideal.tanh (Spec.y1 x a1 a2 a3 b1 b2 b3 w (ix2 p (⟨2047, by norm_num⟩ : Fin 2050))) := by
  rw [val_main_v19_apply, val_main_v18_apply, y1_eq, show idx_main_v18 (ix2 p (0 : Fin 1)) = ix2 p (⟨2047, by norm_num⟩ : Fin 2050) from Shape.idx_ext₂ rfl rfl, Ideal.hostUnary_tanh_def]

theorem wNew_eq : val_main_v17 (F := Ideal) x a1 a2 a3 b1 b2 b3 w = Spec.sca (Spec.wNew x a1 a2 a3 b1 b2 b3 w) := by
  funext i
  rw [val_main_v17_apply, val_main_v16_apply, val_main_cst_apply, val_main_cst_0_apply, sum_col]
  simp only [tanhCol_v15, Ideal.hostDivf_def, Ideal.ofBits_def, Ideal.ofBits_zero_f32, zero_add]
  rfl

theorem dopa_eq : val_main_v21 (F := Ideal) x a1 a2 a3 b1 b2 b3 w = Spec.sca (Spec.dopa x a1 a2 a3 b1 b2 b3 w) := by
  funext i
  rw [val_main_v21_apply, val_main_v20_apply, val_main_cst_1_apply, val_main_cst_2_apply, sum_col]
  simp only [tanhCol_v19, Ideal.hostDivf_def, Ideal.ofBits_def, Ideal.ofBits_zero_f32, zero_add]
  rfl

theorem acc1_eq : val_main_v47 (F := Ideal) x a1 b1 w = Spec.mmT x (Spec.h0x x a1 b1 w) := by
  refine ext2 fun i j => ?_
  rw [val_main_v47_apply, h0x_eq, mmT_at]
  exact Finset.sum_congr rfl fun k _ => by rw [val_main_v46_apply, eq_ix2 (idx_main_v46 _), eq_ix2 (ridx_main_v47 _ k)] <;> rfl

theorem acc2_eq : val_main_v36 (F := Ideal) x a1 a2 b1 b2 w
    = Spec.mmT (Spec.relu (Spec.h0x x a1 b1 w)) (Spec.h10 x a1 a2 b1 b2 w) := by
  refine ext2 fun i j => ?_
  rw [val_main_v36_apply, h10_eq, mmT_at]
  exact Finset.sum_congr rfl fun k _ => by rw [val_main_v35_apply, r0_eq, eq_ix2 (idx_main_v35 _), eq_ix2 (ridx_main_v36 _ k)] <;> rfl

theorem acc3_eq : val_main_v25 (F := Ideal) x a1 a2 a3 b1 b2 b3 w
    = Spec.mmT (Spec.relu (Spec.h10 x a1 a2 b1 b2 w)) (Spec.y1 x a1 a2 a3 b1 b2 b3 w) := by
  refine ext2 fun i j => ?_
  rw [val_main_v25_apply, y1_eq, mmT_at]
  exact Finset.sum_congr rfl fun k _ => by rw [val_main_v24_apply, r1_eq, eq_ix2 (idx_main_v24 _), eq_ix2 (ridx_main_v25 _ k)] <;> rfl

end Forward

section Traces
variable (x : Spec.Mat 4096 2048) (a1 a2 : Spec.Mat 2048 2048) (a3 : Spec.Mat 2048 2050)
  (e1 e2 : Spec.Mat 2048 2048) (e3 : Spec.Mat 2048 2050)
  (b1 b2 : Spec.Mat 2048 2048) (b3 : Spec.Mat 2048 2050) (w : Spec.Sca)

theorem e1n_eq : val_main_v50 (F := Ideal) x a1 e1 b1 w = Spec.e1n x a1 e1 b1 w := by
  refine ext2 fun i j => ?_
  rw [val_main_v50_apply, val_main_v45_apply, val_main_v44_apply, val_main_v49_apply, val_main_v48_apply, acc1_eq] <;> rfl

theorem e2n_eq : val_main_v39 (F := Ideal) x a1 a2 e2 b1 b2 w = Spec.e2n x a1 a2 e2 b1 b2 w := by
  refine ext2 fun i j => ?_
  rw [val_main_v39_apply, val_main_v34_apply, val_main_v33_apply, val_main_v38_apply, val_main_v37_apply, acc2_eq] <;> rfl

theorem e3n_eq : val_main_v28 (F := Ideal) x a1 a2 a3 e3 b1 b2 b3 w = Spec.e3n x a1 a2 a3 e3 b1 b2 b3 w := by
  refine ext2 fun i j => ?_
  rw [val_main_v28_apply, val_main_v23_apply, val_main_v22_apply, val_main_v27_apply, val_main_v26_apply, acc3_eq] <;> rfl

theorem heb1n_eq : val_main_v54 (F := Ideal) x a1 a2 a3 e1 b1 b2 b3 w = Spec.heb1n x a1 a2 a3 e1 b1 b2 b3 w := by
  refine ext2 fun i j => ?_
  rw [val_main_v54_apply, val_main_call4_v4_apply, val_main_call4_v3_apply, val_main_call4_v2_apply, val_main_call4_v1_apply,
    val_main_v53_apply, val_main_v52_apply, val_main_v51_apply, dopa_eq, e1n_eq] <;> rfl

theorem heb2n_eq : val_main_v43 (F := Ideal) x a1 a2 a3 e2 b1 b2 b3 w = Spec.heb2n x a1 a2 a3 e2 b1 b2 b3 w := by
  refine ext2 fun i j => ?_
  rw [val_main_v43_apply, val_main_call3_v4_apply, val_main_call3_v3_apply, val_main_call3_v2_apply, val_main_call3_v1_apply,
    val_main_v42_apply, val_main_v41_apply, val_main_v40_apply, dopa_eq, e2n_eq] <;> rfl

theorem heb3n_eq : val_main_v32 (F := Ideal) x a1 a2 a3 e3 b1 b2 b3 w = Spec.heb3n x a1 a2 a3 e3 b1 b2 b3 w := by
  refine ext2 fun i j => ?_
  rw [val_main_v32_apply, val_main_call2_v4_apply, val_main_call2_v3_apply, val_main_call2_v2_apply, val_main_call2_v1_apply,
    val_main_v31_apply, val_main_v30_apply, val_main_v29_apply, dopa_eq, e3n_eq] <;> rfl

end Traces

section Args
variable (m : (ℓ : Loc nD τ sig) → Buf (Elt Ideal) ℓ) (c : Dev nD)

abbrev aX : Spec.Mat 4096 2048 := m ((c.tc : Thread nD τ).loc main_arg0)
abbrev aA1 : Spec.Mat 2048 2048 := m ((c.tc : Thread nD τ).loc main_arg1)
abbrev aA2 : Spec.Mat 2048 2048 := m ((c.tc : Thread nD τ).loc main_arg2)
abbrev aA3 : Spec.Mat 2048 2050 := m ((c.tc : Thread nD τ).loc main_arg3)
abbrev aE1 : Spec.Mat 2048 2048 := m ((c.tc : Thread nD τ).loc main_arg4)
abbrev aE2 : Spec.Mat 2048 2048 := m ((c.tc : Thread nD τ).loc main_arg5)
abbrev aE3 : Spec.Mat 2048 2050 := m ((c.tc : Thread nD τ).loc main_arg6)
abbrev aB1 : Spec.Mat 2048 2048 := m ((c.tc : Thread nD τ).loc main_arg7)
abbrev aB2 : Spec.Mat 2048 2048 := m ((c.tc : Thread nD τ).loc main_arg8)
abbrev aB3 : Spec.Mat 2048 2050 := m ((c.tc : Thread nD τ).loc main_arg9)
abbrev aW : Spec.Sca := m ((c.tc : Thread nD τ).loc main_arg10)

end Args

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55) = Spec.yOut (aX m c) (aA1 m c) (aA2 m c) (aA3 m c) (aB1 m c) (aB2 m c) (aB3 m c) (aW m c)
      ∧ r.2.mem ((c.tc : Thread nD τ).loc main_v17) = Spec.sca (Spec.wNew (aX m c) (aA1 m c) (aA2 m c) (aA3 m c) (aB1 m c) (aB2 m c) (aB3 m c) (aW m c))
      ∧ r.2.mem ((c.tc : Thread nD τ).loc main_v21) = Spec.sca (Spec.dopa (aX m c) (aA1 m c) (aA2 m c) (aA3 m c) (aB1 m c) (aB2 m c) (aB3 m c) (aW m c))
      ∧ r.2.mem ((c.tc : Thread nD τ).loc main_v50) = Spec.e1n (aX m c) (aA1 m c) (aE1 m c) (aB1 m c) (aW m c)
      ∧ r.2.mem ((c.tc : Thread nD τ).loc main_v39) = Spec.e2n (aX m c) (aA1 m c) (aA2 m c) (aE2 m c) (aB1 m c) (aB2 m c) (aW m c)
      ∧ r.2.mem ((c.tc : Thread nD τ).loc main_v28) = Spec.e3n (aX m c) (aA1 m c) (aA2 m c) (aA3 m c) (aE3 m c) (aB1 m c) (aB2 m c) (aB3 m c) (aW m c)
      ∧ r.2.mem ((c.tc : Thread nD τ).loc main_v54) = Spec.heb1n (aX m c) (aA1 m c) (aA2 m c) (aA3 m c) (aE1 m c) (aB1 m c) (aB2 m c) (aB3 m c) (aW m c)
      ∧ r.2.mem ((c.tc : Thread nD τ).loc main_v43) = Spec.heb2n (aX m c) (aA1 m c) (aA2 m c) (aA3 m c) (aE2 m c) (aB1 m c) (aB2 m c) (aB3 m c) (aW m c)
      ∧ r.2.mem ((c.tc : Thread nD τ).loc main_v32) = Spec.heb3n (aX m c) (aA1 m c) (aA2 m c) (aA3 m c) (aE3 m c) (aB1 m c) (aB2 m c) (aB3 m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1).trans ((val_main_v55_eq (F := Ideal) _ _ _ _ _ _ _ _).trans (yOut_eq _ _ _ _ _ _ _ _)),
      ((h c).2.1).trans ((val_main_v17_eq (F := Ideal) _ _ _ _ _ _ _ _).trans (wNew_eq _ _ _ _ _ _ _ _)),
      ((h c).2.2.1).trans ((val_main_v21_eq (F := Ideal) _ _ _ _ _ _ _ _).trans (dopa_eq _ _ _ _ _ _ _ _)),
      ((h c).2.2.2.1).trans ((val_main_v50_eq (F := Ideal) _ _ _ _ _).trans (e1n_eq _ _ _ _ _)),
      ((h c).2.2.2.2.1).trans ((val_main_v39_eq (F := Ideal) _ _ _ _ _ _ _).trans (e2n_eq _ _ _ _ _ _ _)),
      ((h c).2.2.2.2.2.1).trans ((val_main_v28_eq (F := Ideal) _ _ _ _ _ _ _ _ _).trans (e3n_eq _ _ _ _ _ _ _ _ _)),
      ((h c).2.2.2.2.2.2.1).trans ((val_main_v54_eq (F := Ideal) _ _ _ _ _ _ _ _ _).trans (heb1n_eq _ _ _ _ _ _ _ _ _)),
      ((h c).2.2.2.2.2.2.2.1).trans ((val_main_v43_eq (F := Ideal) _ _ _ _ _ _ _ _ _).trans (heb2n_eq _ _ _ _ _ _ _ _ _)),
      ((h c).2.2.2.2.2.2.2.2.1).trans ((val_main_v32_eq (F := Ideal) _ _ _ _ _ _ _ _ _).trans (heb3n_eq _ _ _ _ _ _ _ _ _)),
      (h c).2.2.2.2.2.2.2.2.2⟩)
    (Cert.ReferenceIdeal.Value.run (F := Ideal) m ρ)

end Cert.ReferenceIdeal.RefValue

end
-- ==== Proof.lean ====
/-
  A three-layer perceptron with plastic weights W = a + w·heb: the forward pass, two batch means of tanh of output columns,
  and per layer the trace 0.7·e + 0.3·preᵀ·post with the matrix clamp(heb + d·eₙ, ±0.3). The kernel tiles the sums over row
  blocks; over the extended reals both programs are the functions of Spec.lean.
-/
import proofs.«138652_j14508399526340_1_alg».proof.Defs
import proofs.«138652_j14508399526340_1_alg».proof.Proof.Gen.Kernel
import proofs.«138652_j14508399526340_1_alg».proof.Proof.Gen.KernelIdeal
import proofs.«138652_j14508399526340_1_alg».proof.Proof.Gen.ReferenceIdeal
import proofs.«138652_j14508399526340_1_alg».proof.Proof.Gen.Pre_finite_inputs
import proofs.«138652_j14508399526340_1_alg».proof.Proof.KFrame
import proofs.«138652_j14508399526340_1_alg».proof.Proof.KIVal
import proofs.«138652_j14508399526340_1_alg».proof.Proof.RefValue

noncomputable section

namespace Cert.Proof

open Idealize.ShloMosaic Idealize.ShloMosaic.TcCoe Idealize.SL.Sem

theorem frame_k : Cert.frame_Kernel := Cert.Kernel.Hand.frame

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2.2.2.2.2.2.2.2.2) (Cert.ReferenceIdeal.RefValue.run_spec m ρ)

theorem preserves : Cert.preserves_Kernel_KernelIdeal := trivial

theorem algebraic : Cert.algebraic_KernelIdeal_ReferenceIdeal := by
  intro m ρ m' ρ' _ hagree
  refine ⟨_, _, _, _, _, _, _, _, _, Cert.KernelIdeal.Hand.run_spec m ρ, ?_⟩
  refine (θ_run Cert.ReferenceIdeal.defs _ _).mono (fun _ h c => ?_) (Cert.ReferenceIdeal.RefValue.run_spec m' ρ')
  obtain ⟨a0, a1, a2, a3, a4, a5, a6, a7, a8, a9, a10⟩ := hagree c
  obtain ⟨r0, r1, r2, r3, r4, r5, r6, r7, r8, rargs⟩ := h c
  refine ⟨r0.trans ?_, r1.trans ?_, r2.trans ?_, r3.trans ?_, r4.trans ?_, r5.trans ?_, r6.trans ?_, r7.trans ?_, r8.trans ?_, rargs⟩
  all_goals simp only [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
